-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S16x32 : Shape := ⟨2, ![16, 32]⟩
abbrev S131072 : Shape := ⟨1, ![131072]⟩
abbrev S64x32 : Shape := ⟨2, ![64, 32]⟩
abbrev S32 : Shape := ⟨1, ![32]⟩
abbrev S32x32 : Shape := ⟨2, ![32, 32]⟩
abbrev S262176x512 : Shape := ⟨2, ![262176, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S16x32 : S_.BroadcastsInDim S16x32 (![] : Fin 0 → Fin S16x32.rank)
  reducesTo_S16x32_S_d0_1 : S16x32.ReducesTo [0, 1] S_
  bcast_S_S131072 : S_.BroadcastsInDim S131072 (![] : Fin 0 → Fin S131072.rank)
  reducesTo_S131072_S_d0 : S131072.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S262176x512 : S_.BroadcastsInDim S262176x512 (![] : Fin 0 → Fin S262176x512.rank)
  reducesTo_S262176x512_S_d0_1 : S262176x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S262176x512 .f32) (main_arg14 : FVec F S512 .f32) (main_arg15 : FVec F S512x2 .f32) (main_arg16 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S262176x512 .f32 := Host.absf main_arg13
  let main_cst_20 : FVec F S_ .f32 := constant S_ .f32 0x7F800000#32
  let main_v55 : FVec F S262176x512 .f32 := broadcastInDim S262176x512 ![] bcast_S_S262176x512 main_cst_20
  let main_v56 : IVec S262176x512 1 := cmpf .olt main_v54 main_v55
  let main_c_21 : IVec S_ 1 := constantI S_ 1 1#1
  let main_v57 : IVec S_ 1 := (fun x v => Host.reduce IntOp.andi x v reducesTo_S262176x512_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x2 .f32 := Host.absf main_arg15
  let main_cst_24 : FVec F S_ .f32 := constant S_ .f32 0x7F800000#32
  let main_v65 : FVec F S512x2 .f32 := broadcastInDim S512x2 ![] bcast_S_S512x2 main_cst_24
  let main_v66 : IVec S512x2 1 := cmpf .olt main_v64 main_v65
  let main_c_25 : IVec S_ 1 := constantI S_ 1 1#1
  let main_v67 : IVec S_ 1 := (fun x v => Host.reduce IntOp.andi x v reducesTo_S512x2_S_d0_1 h_S_) main_v66 main_c_25
  fn_part4 (F := F) main_arg16 main_v63 main_v67

def fn_part2 {F : FTy → Type} [FloatOps F] (main_arg9 : FVec F S32x32 .f32) (main_arg10 : FVec F S32 .f32) (main_arg11 : FVec F S32 .f32) (main_arg12 : FVec F S32 .f32) (main_arg13 : FVec F S262176x512 .f32) (main_arg14 : FVec F S512 .f32) (main_arg15 : FVec F S512x2 .f32) (main_arg16 : FVec F S2 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_v48 main_v49 main_v50

def fn_part1 {F : FTy → Type} [FloatOps F] (main_arg6 : FVec F S32 .f32) (main_arg7 : FVec F S32 .f32) (main_arg8 : FVec F S32 .f32) (main_arg9 : FVec F S32x32 .f32) (main_arg10 : FVec F S32 .f32) (main_arg11 : FVec F S32 .f32) (main_arg12 : FVec F S32 .f32) (main_arg13 : FVec F S262176x512 .f32) (main_arg14 : FVec F S512 .f32) (main_arg15 : FVec F S512x2 .f32) (main_arg16 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S16x8192x64 .f32) (main_arg1 : FVec F S16x32 .f32) (main_arg2 : IVec S131072 32) (main_arg3 : IVec S131072 32) (main_arg4 : FVec F S131072 .f32) (main_arg5 : FVec F S64x32 .f32) (main_arg6 : FVec F S32 .f32) (main_arg7 : FVec F S32 .f32) (main_arg8 : FVec F S32 .f32) (main_arg9 : FVec F S32x32 .f32) (main_arg10 : FVec F S32 .f32) (main_arg11 : FVec F S32 .f32) (main_arg12 : FVec F S32 .f32) (main_arg13 : FVec F S262176x512 .f32) (main_arg14 : FVec F S512 .f32) (main_arg15 : FVec F S512x2 .f32) (main_arg16 : FVec F S2 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S131072 .f32 := Host.absf main_arg4
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S16x8192x64 : Shape := ⟨3, ![16, 8192, 64]⟩
abbrev S16x32 : Shape := ⟨2, ![16, 32]⟩
abbrev S131072 : Shape := ⟨1, ![131072]⟩
abbrev S64x32 : Shape := ⟨2, ![64, 32]⟩
abbrev S32 : Shape := ⟨1, ![32]⟩
abbrev S32x32 : Shape := ⟨2, ![32, 32]⟩
abbrev S262176x512 : Shape := ⟨2, ![262176, 512]⟩
abbrev S512 : Shape := ⟨1, ![512]⟩
abbrev S512x2 : Shape := ⟨2, ![512, 2]⟩
abbrev S2 : Shape := ⟨1, ![2]⟩
abbrev S8192x16x64 : Shape := ⟨3, ![8192, 16, 64]⟩
abbrev S8192x1024 : Shape := ⟨2, ![8192, 1024]⟩
abbrev S131072x1 : Shape := ⟨2, ![131072, 1]⟩
abbrev S_ : Shape := ⟨0, ![]⟩
abbrev S131072x1024 : Shape := ⟨2, ![131072, 1024]⟩
abbrev S131072x64 : Shape := ⟨2, ![131072, 64]⟩
abbrev S1x32 : Shape := ⟨2, ![1, 32]⟩
abbrev S131072x32 : Shape := ⟨2, ![131072, 32]⟩
abbrev S8192x64 : Shape := ⟨2, ![8192, 64]⟩
abbrev S8192x32 : Shape := ⟨2, ![8192, 32]⟩
abbrev S8192x512 : Shape := ⟨2, ![8192, 512]⟩
abbrev S131072x512 : Shape := ⟨2, ![131072, 512]⟩
abbrev S8192x16x32 : Shape := ⟨3, ![8192, 16, 32]⟩
abbrev S16x8192x32 : Shape := ⟨3, ![16, 8192, 32]⟩
abbrev S16x262144 : Shape := ⟨2, ![16, 262144]⟩
abbrev S16x262176 : Shape := ⟨2, ![16, 262176]⟩
abbrev S16x266240 : Shape := ⟨2, ![16, 266240]⟩
abbrev S266240x512 : Shape := ⟨2, ![266240, 512]⟩
abbrev S1x512 : Shape := ⟨2, ![1, 512]⟩
abbrev S1x2 : Shape := ⟨2, ![1, 2]⟩
abbrev S16x2 : Shape := ⟨2, ![16, 2]⟩
abbrev S16x4096 : Shape := ⟨2, ![16, 4096]⟩
abbrev S4096x512 : Shape := ⟨2, ![4096, 512]⟩
abbrev S16x512 : Shape := ⟨2, ![16, 512]⟩

abbrev nBuf : Space → Nat
  | .hbm => 108
  | .vmem => 41
  | .smem => 0
  | _ => 0

abbrev bufTy : (tb : Table) → Fin (tcTables nBuf tb) → BufTy
  | .hbm, ⟨0, _⟩ => ⟨S16x8192x64, .f32⟩
  | .hbm, ⟨1, _⟩ => ⟨S16x32, .f32⟩
  | .hbm, ⟨2, _⟩ => ⟨S131072, .i32⟩
  | .hbm, ⟨3, _⟩ => ⟨S131072, .i32⟩
  | .hbm, ⟨4, _⟩ => ⟨S131072, .f32⟩
  | .hbm, ⟨5, _⟩ => ⟨S64x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S262176x512, .f32⟩
  | .hbm, ⟨14, _⟩ => ⟨S512, .f32⟩
  | .hbm, ⟨15, _⟩ => ⟨S512x2, .f32⟩
  | .hbm, ⟨16, _⟩ => ⟨S2, .f32⟩
  | .hbm, ⟨17, _⟩ => ⟨S8192x16x64, .f32⟩
  | .hbm, ⟨18, _⟩ => ⟨S8192x1024, .f32⟩
  | .hbm, ⟨19, _⟩ => ⟨S131072x1, .f32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x1024, .f32⟩
  | .hbm, ⟨29, _⟩ => ⟨S131072x1024, .f32⟩
  | .hbm, ⟨30, _⟩ => ⟨S131072x1024, .f32⟩
  | .hbm, ⟨31, _⟩ => ⟨S_, .f32⟩
  | .hbm, ⟨32, _⟩ => ⟨S8192x1024, .f32⟩
  | .hbm, ⟨33, _⟩ => ⟨S131072x1, .i32⟩
  | .hbm, ⟨34, _⟩ => ⟨S8192x1024, .f32⟩
  | .hbm, ⟨35, _⟩ => ⟨S131072x64, .f32⟩
  | .hbm, ⟨36, _⟩ => ⟨S64x32, .bf16⟩
  | .hbm, ⟨37, _⟩ => ⟨S1x32, .f32⟩
  | .hbm, ⟨38, _⟩ => ⟨S131072x32, .f32⟩
  | .hbm, ⟨39, _⟩ => ⟨S1x32, .f32⟩
  | .hbm, ⟨40, _⟩ => ⟨S1x32, .f32⟩
  | .hbm, ⟨41, _⟩ => ⟨S_, .f32⟩
  | .hbm, ⟨42, _⟩ => ⟨S1x32, .f32⟩
  | .hbm, ⟨43, _⟩ => ⟨S1x32, .f32⟩
  | .hbm, ⟨44, _⟩ => ⟨S_, .f32⟩
  | .hbm, ⟨45, _⟩ => ⟨S1x32, .f32⟩
  | .hbm, ⟨46, _⟩ => ⟨S1x32, .f32⟩
  | .hbm, ⟨47, _⟩ => ⟨S1x32, .f32⟩
  | .hbm, ⟨48, _⟩ => ⟨S1x32, .f32⟩
  | .hbm, ⟨49, _⟩ => ⟨S_, .f32⟩
  | .hbm, ⟨50, _⟩ => ⟨S1x32, .f32⟩
  | .hbm, ⟨51, _⟩ => ⟨S1x32, .f32⟩
  | .hbm, ⟨52, _⟩ => ⟨S1x32, .f32⟩
  | .hbm, ⟨53, _⟩ => ⟨S1x32, .f32⟩
  | .hbm, ⟨54, _⟩ => ⟨S131072x32, .f32⟩
  | .hbm, ⟨55, _⟩ => ⟨S8192x512, .f32⟩
  | .hbm, ⟨56, _⟩ => ⟨S131072x1, .f32⟩
  | .hbm, ⟨57, _⟩ => ⟨S_, .i32⟩
  | .hbm, ⟨58, _⟩ => ⟨S131072, .i32⟩
  | .hbm, ⟨59, _⟩ => ⟨S131072, .i1⟩
  | .hbm, ⟨60, _⟩ => ⟨S_, .i32⟩
  | .hbm, ⟨61, _⟩ => ⟨S131072, .i32⟩
  | .hbm, ⟨62, _⟩ => ⟨S131072, .i32⟩
  | .hbm, ⟨63, _⟩ => ⟨S131072, .i32⟩
  | .hbm, ⟨64, _⟩ => ⟨S131072x1, .i32⟩
  | .hbm, ⟨65, _⟩ => ⟨S131072x512, .f32⟩
  | .hbm, ⟨66, _⟩ => ⟨S131072x512, .f32⟩
  | .hbm, ⟨67, _⟩ => ⟨S131072x512, .f32⟩
  | .hbm, ⟨68, _⟩ => ⟨S_, .f32⟩
  | .hbm, ⟨69, _⟩ => ⟨S8192x512, .f32⟩
  | .hbm, ⟨70, _⟩ => ⟨S131072x1, .i32⟩
  | .hbm, ⟨71, _⟩ => ⟨S8192x512, .f32⟩
  | .hbm, ⟨72, _⟩ => ⟨S131072x32, .f32⟩
  | .hbm, ⟨73, _⟩ => ⟨S32x32, .bf16⟩
  | .hbm, ⟨74, _⟩ => ⟨S1x32, .f32⟩
  | .hbm, ⟨75, _⟩ => ⟨S131072x32, .f32⟩
  | .hbm, ⟨76, _⟩ => ⟨S1x32, .f32⟩
  | .hbm, ⟨77, _⟩ => ⟨S1x32, .f32⟩
  | .hbm, ⟨78, _⟩ => ⟨S_, .f32⟩
  | .hbm, ⟨79, _⟩ => ⟨S1x32, .f32⟩
  | .hbm, ⟨80, _⟩ => ⟨S1x32, .f32⟩
  | .hbm, ⟨81, _⟩ => ⟨S_, .f32⟩
  | .hbm, ⟨82, _⟩ => ⟨S1x32, .f32⟩
  | .hbm, ⟨83, _⟩ => ⟨S1x32, .f32⟩
  | .hbm, ⟨84, _⟩ => ⟨S1x32, .f32⟩
  | .hbm, ⟨85, _⟩ => ⟨S1x32, .f32⟩
  | .hbm, ⟨86, _⟩ => ⟨S_, .f32⟩
  | .hbm, ⟨87, _⟩ => ⟨S1x32, .f32⟩
  | .hbm, ⟨88, _⟩ => ⟨S1x32, .f32⟩
  | .hbm, ⟨89, _⟩ => ⟨S1x32, .f32⟩
  | .hbm, ⟨90, _⟩ => ⟨S1x32, .f32⟩
  | .hbm, ⟨91, _⟩ => ⟨S131072x32, .f32⟩
  | .hbm, ⟨92, _⟩ => ⟨S8192x16x32, .f32⟩
  | .hbm, ⟨93, _⟩ => ⟨S16x8192x32, .f32⟩
  | .hbm, ⟨94, _⟩ => ⟨S16x262144, .f32⟩
  | .hbm, ⟨95, _⟩ => ⟨S16x262176, .f32⟩
  | .hbm, ⟨96, _⟩ => ⟨S16x262176, .bf16⟩
  | .hbm, ⟨97, _⟩ => ⟨S262176x512, .bf16⟩
  | .hbm, ⟨98, _⟩ => ⟨S_, .i32⟩
  | .hbm, ⟨99, _⟩ => ⟨S_, .bf16⟩
  | .hbm, ⟨100, _⟩ => ⟨S16x266240, .bf16⟩
  | .hbm, ⟨101, _⟩ => ⟨S_, .i32⟩
  | .hbm, ⟨102, _⟩ => ⟨S_, .bf16⟩
  | .hbm, ⟨103, _⟩ => ⟨S266240x512, .bf16⟩
  | .hbm, ⟨104, _⟩ => ⟨S1x512, .f32⟩
  | .hbm, ⟨105, _⟩ => ⟨S512x2, .bf16⟩
  | .hbm, ⟨106, _⟩ => ⟨S1x2, .f32⟩
  | .hbm, ⟨107, _⟩ => ⟨S16x2, .f32⟩
  | .local _ .vmem, ⟨0, _⟩ => ⟨S8192x64, .f32⟩
  | .local _ .vmem, ⟨1, _⟩ => ⟨S8192x64, .f32⟩
  | .local _ .vmem, ⟨2, _⟩ => ⟨S64x32, .bf16⟩
  | .local _ .vmem, ⟨3, _⟩ => ⟨S1x32, .f32⟩
  | .local _ .vmem, ⟨4, _⟩ => ⟨S8192x32, .f32⟩
  | .local _ .vmem, ⟨5, _⟩ => ⟨S8192x32, .f32⟩
  | .local _ .vmem, ⟨6, _⟩ => ⟨S1x32, .f32⟩
  | .local _ .vmem, ⟨7, _⟩ => ⟨S1x32, .f32⟩
  | .local _ .vmem, ⟨8, _⟩ => ⟨S8192x32, .f32⟩
  | .local _ .vmem, ⟨9, _⟩ => ⟨S8192x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S8192x32, .f32⟩
  | .local _ .vmem, ⟨15, _⟩ => ⟨S8192x32, .f32⟩
  | .local _ .vmem, ⟨16, _⟩ => ⟨S8192x32, .f32⟩
  | .local _ .vmem, ⟨17, _⟩ => ⟨S8192x32, .f32⟩
  | .local _ .vmem, ⟨18, _⟩ => ⟨S32x32, .bf16⟩
  | .local _ .vmem, ⟨19, _⟩ => ⟨S1x32, .f32⟩
  | .local _ .vmem, ⟨20, _⟩ => ⟨S8192x32, .f32⟩
  | .local _ .vmem, ⟨21, _⟩ => ⟨S8192x32, .f32⟩
  | .local _ .vmem, ⟨22, _⟩ => ⟨S1x32, .f32⟩
  | .local _ .vmem, ⟨23, _⟩ => ⟨S1x32, .f32⟩
  | .local _ .vmem, ⟨24, _⟩ => ⟨S8192x32, .f32⟩
  | .local _ .vmem, ⟨25, _⟩ => ⟨S8192x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S1x32, .f32⟩
  | .local _ .vmem, ⟨30, _⟩ => ⟨S8192x32, .f32⟩
  | .local _ .vmem, ⟨31, _⟩ => ⟨S8192x32, .f32⟩
  | .local _ .vmem, ⟨32, _⟩ => ⟨S16x4096, .bf16⟩
  | .local _ .vmem, ⟨33, _⟩ => ⟨S16x4096, .bf16⟩
  | .local _ .vmem, ⟨34, _⟩ => ⟨S4096x512, .bf16⟩
  | .local _ .vmem, ⟨35, _⟩ => ⟨S4096x512, .bf16⟩
  | .local _ .vmem, ⟨36, _⟩ => ⟨S1x512, .f32⟩
  | .local _ .vmem, ⟨37, _⟩ => ⟨S512x2, .bf16⟩
  | .local _ .vmem, ⟨38, _⟩ => ⟨S1x2, .f32⟩
  | .local _ .vmem, ⟨39, _⟩ => ⟨S16x2, .f32⟩
  | .local _ .vmem, ⟨40, _⟩ => ⟨S16x512, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_10 : Ref sig .tc := ⟨.hbm, 98, rfl⟩
abbrev main_call0_v0 : Ref sig .tc := ⟨.hbm, 99, rfl⟩
abbrev main_v65 : Ref sig .tc := ⟨.hbm, 100, rfl⟩
abbrev main_c_11 : Ref sig .tc := ⟨.hbm, 101, rfl⟩
abbrev main_call1_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8192x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![65], ![false]⟩

def k4_cond2 (i : grid4.Coords) : BitVec 1 :=
  let arg0 : BitVec 32 := BitVec.ofNat 32 (i 0).val
  let c64_i32 : BitVec 32 := 64#32
  let v13 : BitVec 1 := Scalar.cmpi .eq arg0 c64_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S16x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  transposes_S16x8192x64_S8192x16x64_1_0_2 : S16x8192x64.Transposes [1, 0, 2] S8192x16x64
  shapeCasts_S8192x16x64_S8192x1024 : S8192x16x64.ShapeCasts S8192x1024
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x1024_0_1 : S131072x1.BroadcastsInDim S131072x1024 (![0, 1] : Fin 2 → Fin S131072x1024.rank)
  bcast_S_S8192x1024 : S_.BroadcastsInDim S8192x1024 (![] : Fin 0 → Fin S8192x1024.rank)
  shapeCasts_S8192x1024_S131072x64 : S8192x1024.ShapeCasts S131072x64
  bitsLt_bf16_f32 : FTy.bits .bf16 < FTy.bits .f32
  shapeCasts_S32_S1x32 : S32.ShapeCasts S1x32
  inb_S1x32_S1x32_0_0 : ∀ a, (![0, 0] : Fin 2 → Nat) a + S1x32.size a ≤ S1x32.size a
  h_S1x32 : 0 < S1x32.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S1x32_S1x32 : S1x32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  reduces_S8192x32_S32 : S8192x32.Reduces [0] S32
  bcast_S_S1x32 : S_.BroadcastsInDim S1x32 (![] : Fin 0 → Fin S1x32.rank)
  shapeCasts_S8192x32_S8192x32 : S8192x32.ShapeCasts S8192x32
  shapeCasts_S131072x32_S8192x512 : S131072x32.ShapeCasts S8192x512
  bcast_S131072x1_S131072x512_0_1 : S131072x1.BroadcastsInDim S131072x512 (![0, 1] : Fin 2 → Fin S131072x512.rank)
  bcast_S_S8192x512 : S_.BroadcastsInDim S8192x512 (![] : Fin 0 → Fin S8192x512.rank)
  shapeCasts_S8192x512_S131072x32 : S8192x512.ShapeCasts S131072x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S131072x32_S8192x16x32 : S131072x32.ShapeCasts S8192x16x32
  transposes_S8192x16x32_S16x8192x32_1_0_2 : S8192x16x32.Transposes [1, 0, 2] S16x8192x32
  shapeCasts_S16x8192x32_S16x262144 : S16x8192x32.ShapeCasts S16x262144
  concatenates_S16x262144_S16x32_S16x262176_d1 : Shape.Concatenates [S16x262144, S16x32] S16x262176 1
  pads_S16x262176_S16x266240_000_040640 : S16x262176.Pads (![0, 0] : Fin 2 → Nat) ![0, 4064] ![0, 0] S16x266240
  h_S_ : 0 < S_.numel
  pads_S262176x512_S266240x512_040640_000 : S262176x512.Pads (![0, 0] : Fin 2 → Nat) ![4064, 0] ![0, 0] S266240x512
  shapeCasts_S512_S1x512 : S512.ShapeCasts S1x512
  shapeCasts_S2_S1x2 : S2.ShapeCasts S1x2
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S16x2 : S1x2.Broadcasts S16x2
  inb_S16x2_S16x2_0_0 : ∀ a, (![0, 0] : Fin 2 → Nat) a + S16x2.size a ≤ S16x2.size a
  h_S16x2 : 0 < S16x2.numel
  gather_S8192x1024_S131072x1_S131072x1024_1_0_n_n_0_1_11024_wf : GatherDims.WF S8192x1024 S131072x1 S131072x1024 [1] [0] [] [0] [] 1 ![1, 1024]
  scatter_S8192x1024_S131072x1_S131072x1024_1_0_0_1_wf : ScatterDims.WF S8192x1024 S131072x1 S131072x1024 [1] [0] [0] 1
  dot_S8192x64_S64x32_S8192x32_1_0_0_1_n_n_wf : DotDims.WF S8192x64 S64x32 S8192x32 [1] [0] [0] [1] [] []
  gather_S8192x512_S131072x1_S131072x512_1_0_n_n_0_1_1512_wf : GatherDims.WF S8192x512 S131072x1 S131072x512 [1] [0] [] [0] [] 1 ![1, 512]
  scatter_S8192x512_S131072x1_S131072x512_1_0_0_1_wf : ScatterDims.WF S8192x512 S131072x1 S131072x512 [1] [0] [0] 1
  dot_S8192x32_S32x32_S8192x32_1_0_0_1_n_n_wf : DotDims.WF S8192x32 S32x32 S8192x32 [1] [0] [0] [1] [] []
  dot_S16x4096_S4096x512_S16x512_1_0_0_1_n_n_wf : DotDims.WF S16x4096 S4096x512 S16x512 [1] [0] [0] [1] [] []
  dot_S16x512_S512x2_S16x2_1_0_0_1_n_n_wf : DotDims.WF S16x512 S512x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S131072x64.size a
  hwx0_0 : ∀ i : grid0.Coords, EltTy.bits .f32 = 32 ∨ (Rect.block (s := S131072x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .bf16 = 32 ∨ (Rect.block (s := S64x32) S64x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x32.size a ≤ S131072x32.size a
  hwx0_3 : ∀ i : grid0.Coords, EltTy.bits .f32 = 32 ∨ (Rect.block (s := S131072x32) S8192x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S131072x32.size a
  hwx1_0 : ∀ i : grid1.Coords, EltTy.bits .f32 = 32 ∨ (Rect.block (s := S131072x32) S8192x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x32.size a ≤ S131072x32.size a
  hwx1_5 : ∀ i : grid1.Coords, EltTy.bits .f32 = 32 ∨ (Rect.block (s := S131072x32) S8192x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S131072x32.size a
  hwx2_0 : ∀ i : grid2.Coords, EltTy.bits .f32 = 32 ∨ (Rect.block (s := S131072x32) S8192x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .bf16 = 32 ∨ (Rect.block (s := S32x32) S32x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x32.size a ≤ S131072x32.size a
  hwx2_3 : ∀ i : grid2.Coords, EltTy.bits .f32 = 32 ∨ (Rect.block (s := S131072x32) S8192x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x32.size a ≤ S131072x32.size a
  hwx3_0 : ∀ i : grid3.Coords, EltTy.bits .f32 = 32 ∨ (Rect.block (s := S131072x32) S8192x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8192x32.size a ≤ S131072x32.size a
  hwx3_5 : ∀ i : grid3.Coords, EltTy.bits .f32 = 32 ∨ (Rect.block (s := S131072x32) S8192x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16x4096.size a ≤ S16x266240.size a
  hwx4_0 : ∀ i : grid4.Coords, EltTy.bits .bf16 = 32 ∨ (Rect.block (s := S16x266240) S16x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x512.size a ≤ S266240x512.size a
  hwx4_1 : ∀ i : grid4.Coords, EltTy.bits .bf16 = 32 ∨ (Rect.block (s := S266240x512) S4096x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .bf16 = 32 ∨ (Rect.block (s := S512x2) S512x2.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x2.size a ≤ S16x2.size a
  hwx4_5 : ∀ i : grid4.Coords, EltTy.bits .f32 = 32 ∨ (Rect.block (s := S16x2) S16x2.size (cc4_transform_5 i) (hinb4_5 i)).WholeWords (EltTy.packing .f32)

variable [Facts₀]

def gather_S8192x1024_S131072x1_S131072x1024_1_0_n_n_0_1_11024 : GatherDims S8192x1024 S131072x1 S131072x1024 where
  offsetDims := [1]
  collapsedSliceDims := [0]
  operandBatchingDims := []
  startIndicesBatchingDims := []
  startIndexMap := [0]
  indexVectorDim := 1
  sliceSizes := ![1, 1024]
  wf := gather_S8192x1024_S131072x1_S131072x1024_1_0_n_n_0_1_11024_wf
def scatter_S8192x1024_S131072x1_S131072x1024_1_0_0_1 : ScatterDims S8192x1024 S131072x1 S131072x1024 where
  updateWindowDims := [1]
  insertedWindowDims := [0]
  scatterDimsToOperandDims := [0]
  indexVectorDim := 1
  wf := scatter_S8192x1024_S131072x1_S131072x1024_1_0_0_1_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S8192x512_S131072x1_S131072x512_1_0_n_n_0_1_1512 : GatherDims S8192x512 S131072x1 S131072x512 where
  offsetDims := [1]
  collapsedSliceDims := [0]
  operandBatchingDims := []
  startIndicesBatchingDims := []
  startIndexMap := [0]
  indexVectorDim := 1
  sliceSizes := ![1, 512]
  wf := gather_S8192x512_S131072x1_S131072x512_1_0_n_n_0_1_1512_wf
def scatter_S8192x512_S131072x1_S131072x512_1_0_0_1 : ScatterDims S8192x512 S131072x1 S131072x512 where
  updateWindowDims := [1]
  insertedWindowDims := [0]
  scatterDimsToOperandDims := [0]
  indexVectorDim := 1
  wf := scatter_S8192x512_S131072x1_S131072x512_1_0_0_1_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S16x4096_S4096x512_S16x512_1_0_0_1_n_n : DotDims S16x4096 S4096x512 S16x512 where
  lhsContracting := [1]
  rhsContracting := [0]
  lhsNonContracting := [0]
  rhsNonContracting := [1]
  lhsBatch := []
  rhsBatch := []
  wf := dot_S16x4096_S4096x512_S16x512_1_0_0_1_n_n_wf
def dot_S16x512_S512x2_S16x2_1_0_0_1_n_n : DotDims S16x512 S512x2 S16x2 where
  lhsContracting := [1]
  rhsContracting := [0]
  lhsNonContracting := [0]
  rhsNonContracting := [1]
  lhsBatch := []
  rhsBatch := []
  wf := dot_S16x512_S512x2_S16x2_1_0_0_1_n_n_wf

abbrev win0_0 : Pipeline.Window sig grid0 :=
  Pipeline.Window.ofSpec (Memref.whole main_v15) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S8192x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x32.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_2) S1x32.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18_0) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S8192x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S8192x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S8192x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S1x32.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_2) S1x32.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47_0) S8192x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S8192x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v65) S16x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S4096x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S512x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S16x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S16x8192x64 : Shape := ⟨3, ![16, 8192, 64]⟩
abbrev S16x32 : Shape := ⟨2, ![16, 32]⟩
abbrev S131072 : Shape := ⟨1, ![131072]⟩
abbrev S64x32 : Shape := ⟨2, ![64, 32]⟩
abbrev S32 : Shape := ⟨1, ![32]⟩
abbrev S32x32 : Shape := ⟨2, ![32, 32]⟩
abbrev S262176x512 : Shape := ⟨2, ![262176, 512]⟩
abbrev S512 : Shape := ⟨1, ![512]⟩
abbrev S512x2 : Shape := ⟨2, ![512, 2]⟩
abbrev S2 : Shape := ⟨1, ![2]⟩
abbrev S8192x16x64 : Shape := ⟨3, ![8192, 16, 64]⟩
abbrev S8192x1024 : Shape := ⟨2, ![8192, 1024]⟩
abbrev S131072x1 : Shape := ⟨2, ![131072, 1]⟩
abbrev S_ : Shape := ⟨0, ![]⟩
abbrev S131072x1024 : Shape := ⟨2, ![131072, 1024]⟩
abbrev S131072x64 : Shape := ⟨2, ![131072, 64]⟩
abbrev S131072x32 : Shape := ⟨2, ![131072, 32]⟩
abbrev S1x32 : Shape := ⟨2, ![1, 32]⟩
abbrev S8192x16x32 : Shape := ⟨3, ![8192, 16, 32]⟩
abbrev S16x8192x32 : Shape := ⟨3, ![16, 8192, 32]⟩
abbrev S1x1x32 : Shape := ⟨3, ![1, 1, 32]⟩
abbrev S8192x512 : Shape := ⟨2, ![8192, 512]⟩
abbrev S131072x512 : Shape := ⟨2, ![131072, 512]⟩
abbrev S16x262144 : Shape := ⟨2, ![16, 262144]⟩
abbrev S16x262176 : Shape := ⟨2, ![16, 262176]⟩
abbrev S16x512 : Shape := ⟨2, ![16, 512]⟩
abbrev S1x512 : Shape := ⟨2, ![1, 512]⟩
abbrev S16x2 : Shape := ⟨2, ![16, 2]⟩
abbrev S1x2 : Shape := ⟨2, ![1, 2]⟩

abbrev nBuf : Space → Nat
  | .hbm => 146
  | .vmem => 0
  | .smem => 0
  | _ => 0

abbrev hbmTy0_0 (i : Nat) : BufTy := match i % 128 with
  | 0 => ⟨S16x8192x64, .f32⟩
  | 1 => ⟨S16x32, .f32⟩
  | 2 => ⟨S131072, .i32⟩
  | 3 => ⟨S131072, .i32⟩
  | 4 => ⟨S131072, .f32⟩
  | 5 => ⟨S64x32, .f32⟩
  | 6 => ⟨S32, .f32⟩
  | 7 => ⟨S32, .f32⟩
  | 8 => ⟨S32, .f32⟩
  | 9 => ⟨S32x32, .f32⟩
  | 10 => ⟨S32, .f32⟩
  | 11 => ⟨S32, .f32⟩
  | 12 => ⟨S32, .f32⟩
  | 13 => ⟨S262176x512, .f32⟩
  | 14 => ⟨S512, .f32⟩
  | 15 => ⟨S512x2, .f32⟩
  | 16 => ⟨S2, .f32⟩
  | 17 => ⟨S8192x16x64, .f32⟩
  | 18 => ⟨S8192x1024, .f32⟩
  | 19 => ⟨S131072x1, .f32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x1024, .f32⟩
  | 29 => ⟨S131072x1024, .f32⟩
  | 30 => ⟨S131072x1024, .f32⟩
  | 31 => ⟨S_, .f32⟩
  | 32 => ⟨S8192x1024, .f32⟩
  | 33 => ⟨S131072x1, .i32⟩
  | 34 => ⟨S8192x1024, .f32⟩
  | 35 => ⟨S131072x64, .f32⟩
  | 36 => ⟨S131072x32, .f32⟩
  | 37 => ⟨S1x32, .f32⟩
  | 38 => ⟨S131072x32, .f32⟩
  | 39 => ⟨S131072x32, .f32⟩
  | 40 => ⟨S8192x16x32, .f32⟩
  | 41 => ⟨S16x8192x32, .f32⟩
  | 42 => ⟨S_, .f32⟩
  | 43 => ⟨S32, .f32⟩
  | 44 => ⟨S_, .f32⟩
  | 45 => ⟨S32, .f32⟩
  | 46 => ⟨S32, .f32⟩
  | 47 => ⟨S1x1x32, .f32⟩
  | 48 => ⟨S16x8192x32, .f32⟩
  | 49 => ⟨S16x8192x32, .f32⟩
  | 50 => ⟨S16x8192x32, .f32⟩
  | 51 => ⟨S_, .f32⟩
  | 52 => ⟨S32, .f32⟩
  | 53 => ⟨S_, .f32⟩
  | 54 => ⟨S32, .f32⟩
  | 55 => ⟨S32, .f32⟩
  | 56 => ⟨S1x1x32, .f32⟩
  | 57 => ⟨S16x8192x32, .f32⟩
  | 58 => ⟨S16x8192x32, .f32⟩
  | 59 => ⟨S1x1x32, .f32⟩
  | 60 => ⟨S16x8192x32, .f32⟩
  | 61 => ⟨S16x8192x32, .f32⟩
  | 62 => ⟨S_, .f32⟩
  | 63 => ⟨S32, .f32⟩
  | 64 => ⟨S32, .f32⟩
  | 65 => ⟨S32, .f32⟩
  | 66 => ⟨S1x1x32, .f32⟩
  | 67 => ⟨S16x8192x32, .f32⟩
  | 68 => ⟨S16x8192x32, .f32⟩
  | 69 => ⟨S1x1x32, .f32⟩
  | 70 => ⟨S16x8192x32, .f32⟩
  | 71 => ⟨S16x8192x32, .f32⟩
  | 72 => ⟨S_, .f32⟩
  | 73 => ⟨S16x8192x32, .f32⟩
  | 74 => ⟨S16x8192x32, .f32⟩
  | 75 => ⟨S8192x16x32, .f32⟩
  | 76 => ⟨S8192x512, .f32⟩
  | 77 => ⟨S131072x1, .f32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S131072x512, .f32⟩
  | 87 => ⟨S131072x512, .f32⟩
  | 88 => ⟨S131072x512, .f32⟩
  | 89 => ⟨S_, .f32⟩
  | 90 => ⟨S8192x512, .f32⟩
  | 91 => ⟨S131072x1, .i32⟩
  | 92 => ⟨S8192x512, .f32⟩
  | 93 => ⟨S131072x32, .f32⟩
  | 94 => ⟨S131072x32, .f32⟩
  | 95 => ⟨S1x32, .f32⟩
  | 96 => ⟨S131072x32, .f32⟩
  | 97 => ⟨S131072x32, .f32⟩
  | 98 => ⟨S8192x16x32, .f32⟩
  | 99 => ⟨S16x8192x32, .f32⟩
  | 100 => ⟨S_, .f32⟩
  | 101 => ⟨S32, .f32⟩
  | 102 => ⟨S_, .f32⟩
  | 103 => ⟨S32, .f32⟩
  | 104 => ⟨S32, .f32⟩
  | 105 => ⟨S1x1x32, .f32⟩
  | 106 => ⟨S16x8192x32, .f32⟩
  | 107 => ⟨S16x8192x32, .f32⟩
  | 108 => ⟨S16x8192x32, .f32⟩
  | 109 => ⟨S_, .f32⟩
  | 110 => ⟨S32, .f32⟩
  | 111 => ⟨S_, .f32⟩
  | 112 => ⟨S32, .f32⟩
  | 113 => ⟨S32, .f32⟩
  | 114 => ⟨S1x1x32, .f32⟩
  | 115 => ⟨S16x8192x32, .f32⟩
  | 116 => ⟨S16x8192x32, .f32⟩
  | 117 => ⟨S1x1x32, .f32⟩
  | 118 => ⟨S16x8192x32, .f32⟩
  | 119 => ⟨S16x8192x32, .f32⟩
  | 120 => ⟨S_, .f32⟩
  | 121 => ⟨S32, .f32⟩
  | 122 => ⟨S32, .f32⟩
  | 123 => ⟨S32, .f32⟩
  | 124 => ⟨S1x1x32, .f32⟩
  | 125 => ⟨S16x8192x32, .f32⟩
  | 126 => ⟨S16x8192x32, .f32⟩
  | 127 => ⟨S1x1x32, .f32⟩
  | _ => ⟨S16x8192x64, .f32⟩

abbrev hbmTy0_1 (i : Nat) : BufTy := match i % 128 with
  | 0 => ⟨S16x8192x32, .f32⟩
  | 1 => ⟨S16x8192x32, .f32⟩
  | 2 => ⟨S_, .f32⟩
  | 3 => ⟨S16x8192x32, .f32⟩
  | 4 => ⟨S16x8192x32, .f32⟩
  | 5 => ⟨S16x262144, .f32⟩
  | 6 => ⟨S16x262176, .f32⟩
  | 7 => ⟨S16x512, .f32⟩
  | 8 => ⟨S1x512, .f32⟩
  | 9 => ⟨S16x512, .f32⟩
  | 10 => ⟨S16x512, .f32⟩
  | 11 => ⟨S_, .f32⟩
  | 12 => ⟨S16x512, .f32⟩
  | 13 => ⟨S16x512, .f32⟩
  | 14 => ⟨S16x2, .f32⟩
  | 15 => ⟨S1x2, .f32⟩
  | 16 => ⟨S16x2, .f32⟩
  | 17 => ⟨S16x2, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call0_cst : Ref sig .tc := ⟨.hbm, 72, rfl⟩
abbrev main_call0_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_6 : Ref sig .tc := ⟨.hbm, 78, rfl⟩
abbrev main_v51 : Ref sig .tc := ⟨.hbm, 79, rfl⟩
abbrev main_v52 : Ref sig .tc := ⟨.hbm, 80, rfl⟩
abbrev main_c_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_cst_10 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_cst_12 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_13 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call1_cst : Ref sig .tc := ⟨.hbm, 130, rfl⟩
abbrev main_call1_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call2_cst : Ref sig .tc := ⟨.hbm, 139, rfl⟩
abbrev main_call2_v0 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  transposes_S16x8192x64_S8192x16x64_1_0_2 : S16x8192x64.Transposes [1, 0, 2] S8192x16x64
  shapeCasts_S8192x16x64_S8192x1024 : S8192x16x64.ShapeCasts S8192x1024
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x1024_0_1 : S131072x1.BroadcastsInDim S131072x1024 (![0, 1] : Fin 2 → Fin S131072x1024.rank)
  bcast_S_S8192x1024 : S_.BroadcastsInDim S8192x1024 (![] : Fin 0 → Fin S8192x1024.rank)
  shapeCasts_S8192x1024_S131072x64 : S8192x1024.ShapeCasts S131072x64
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  shapeCasts_S131072x32_S8192x16x32 : S131072x32.ShapeCasts S8192x16x32
  transposes_S8192x16x32_S16x8192x32_1_0_2 : S8192x16x32.Transposes [1, 0, 2] S16x8192x32
  reducesTo_S16x8192x32_S32_d0_1 : S16x8192x32.ReducesTo [0, 1] S32
  h_S_ : 0 < S_.numel
  bcast_S_S32 : S_.BroadcastsInDim S32 (![] : Fin 0 → Fin S32.rank)
  bcast_S32_S1x1x32_2 : S32.BroadcastsInDim S1x1x32 (![2] : Fin 1 → Fin S1x1x32.rank)
  bcast_S1x1x32_S16x8192x32_0_1_2 : S1x1x32.BroadcastsInDim S16x8192x32 (![0, 1, 2] : Fin 3 → Fin S16x8192x32.rank)
  bcast_S_S16x8192x32 : S_.BroadcastsInDim S16x8192x32 (![] : Fin 0 → Fin S16x8192x32.rank)
  transposes_S16x8192x32_S8192x16x32_1_0_2 : S16x8192x32.Transposes [1, 0, 2] S8192x16x32
  shapeCasts_S8192x16x32_S8192x512 : S8192x16x32.ShapeCasts S8192x512
  bcast_S131072x1_S131072x512_0_1 : S131072x1.BroadcastsInDim S131072x512 (![0, 1] : Fin 2 → Fin S131072x512.rank)
  bcast_S_S8192x512 : S_.BroadcastsInDim S8192x512 (![] : Fin 0 → Fin S8192x512.rank)
  shapeCasts_S8192x512_S131072x32 : S8192x512.ShapeCasts S131072x32
  shapeCasts_S16x8192x32_S16x262144 : S16x8192x32.ShapeCasts S16x262144
  concatenates_S16x262144_S16x32_S16x262176_d1 : Shape.Concatenates [S16x262144, S16x32] S16x262176 1
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  gather_S8192x1024_S131072x1_S131072x1024_1_0_n_n_0_1_11024_wf : GatherDims.WF S8192x1024 S131072x1 S131072x1024 [1] [0] [] [0] [] 1 ![1, 1024]
  scatter_S8192x1024_S131072x1_S131072x1024_1_0_0_1_wf : ScatterDims.WF S8192x1024 S131072x1 S131072x1024 [1] [0] [0] 1
  dot_S131072x64_S64x32_S131072x32_1_0_0_1_n_n_wf : DotDims.WF S131072x64 S64x32 S131072x32 [1] [0] [0] [1] [] []
  gather_S8192x512_S131072x1_S131072x512_1_0_n_n_0_1_1512_wf : GatherDims.WF S8192x512 S131072x1 S131072x512 [1] [0] [] [0] [] 1 ![1, 512]
  scatter_S8192x512_S131072x1_S131072x512_1_0_0_1_wf : ScatterDims.WF S8192x512 S131072x1 S131072x512 [1] [0] [0] 1
  dot_S131072x32_S32x32_S131072x32_1_0_0_1_n_n_wf : DotDims.WF S131072x32 S32x32 S131072x32 [1] [0] [0] [1] [] []
  dot_S16x262176_S262176x512_S16x512_1_0_0_1_n_n_wf : DotDims.WF S16x262176 S262176x512 S16x512 [1] [0] [0] [1] [] []
  dot_S16x512_S512x2_S16x2_1_0_0_1_n_n_wf : DotDims.WF S16x512 S512x2 S16x2 [1] [0] [0] [1] [] []

variable [Facts₀]

def gather_S8192x1024_S131072x1_S131072x1024_1_0_n_n_0_1_11024 : GatherDims S8192x1024 S131072x1 S131072x1024 where
  offsetDims := [1]
  collapsedSliceDims := [0]
  operandBatchingDims := []
  startIndicesBatchingDims := []
  startIndexMap := [0]
  indexVectorDim := 1
  sliceSizes := ![1, 1024]
  wf := gather_S8192x1024_S131072x1_S131072x1024_1_0_n_n_0_1_11024_wf
def scatter_S8192x1024_S131072x1_S131072x1024_1_0_0_1 : ScatterDims S8192x1024 S131072x1 S131072x1024 where
  updateWindowDims := [1]
  insertedWindowDims := [0]
  scatterDimsToOperandDims := [0]
  indexVectorDim := 1
  wf := scatter_S8192x1024_S131072x1_S131072x1024_1_0_0_1_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def gather_S8192x512_S131072x1_S131072x512_1_0_n_n_0_1_1512 : GatherDims S8192x512 S131072x1 S131072x512 where
  offsetDims := [1]
  collapsedSliceDims := [0]
  operandBatchingDims := []
  startIndicesBatchingDims := []
  startIndexMap := [0]
  indexVectorDim := 1
  sliceSizes := ![1, 512]
  wf := gather_S8192x512_S131072x1_S131072x512_1_0_n_n_0_1_1512_wf
def scatter_S8192x512_S131072x1_S131072x512_1_0_0_1 : ScatterDims S8192x512 S131072x1 S131072x512 where
  updateWindowDims := [1]
  insertedWindowDims := [0]
  scatterDimsToOperandDims := [0]
  indexVectorDim := 1
  wf := scatter_S8192x512_S131072x1_S131072x512_1_0_0_1_wf
def dot_S131072x32_S32x32_S131072x32_1_0_0_1_n_n : DotDims S131072x32 S32x32 S131072x32 where
  lhsContracting := [1]
  rhsContracting := [0]
  lhsNonContracting := [0]
  rhsNonContracting := [1]
  lhsBatch := []
  rhsBatch := []
  wf := dot_S131072x32_S32x32_S131072x32_1_0_0_1_n_n_wf
def dot_S16x262176_S262176x512_S16x512_1_0_0_1_n_n : DotDims S16x262176 S262176x512 S16x512 where
  lhsContracting := [1]
  rhsContracting := [0]
  lhsNonContracting := [0]
  rhsNonContracting := [1]
  lhsBatch := []
  rhsBatch := []
  wf := dot_S16x262176_S262176x512_S16x512_1_0_0_1_n_n_wf
def dot_S16x512_S512x2_S16x2_1_0_0_1_n_n : DotDims S16x512 S512x2 S16x2 where
  lhsContracting := [1]
  rhsContracting := [0]
  lhsNonContracting := [0]
  rhsNonContracting := [1]
  lhsBatch := []
  rhsBatch := []
  wf := dot_S16x512_S512x2_S16x2_1_0_0_1_n_n_wf

class Facts : Prop extends Facts₀ where

variable [Facts]
-- ==== Proof.K.R0Defs.lean ====
import proofs.«120946_j80985903333894_1_alg».proof.Proof.Gen.Kernel.Launch
import proofs.«120946_j80985903333894_1_alg».proof.Proof.Gen.Kernel.Skeleton
import proofs.«120946_j80985903333894_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Fr

open Cert.Kernel Cert.Kernel.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the affine map computed at point `t`. -/
def y0 (c : Dev nD) (t : Fin cfg0.N) : Vec F S8192x32 .f32 :=
  k0_pay3 (iblk0 V c 0 t) (iblk0 V c 1 t) (iblk0 V c 2 t)

/-- The running column sums and column sums of squares after point `n`: each point adds those of its rows to the point before's, from zero. -/
def acc0 (c : Dev nD) : (n : ℕ) → n < cfg0.N → Vec F S1x32 .f32 × Vec F S1x32 .f32
  | 0, hn => (k0_pay4 (iblk0 V c 0 ⟨0, hn⟩) (iblk0 V c 1 ⟨0, hn⟩) (iblk0 V c 2 ⟨0, hn⟩) (k0_pay1 (F := F)),
              k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
              k0_pay5 (iblk0 V c 0 ⟨n + 1, hn⟩) (iblk0 V c 1 ⟨n + 1, hn⟩) (iblk0 V c 2 ⟨n + 1, hn⟩) (acc0 c n (Nat.lt_of_succ_lt hn)).2)

/-- The region's proof data: the values after point `t` are the inputs' blocks, the point's rows and the running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => y0 V c t
    | ⟨4, _⟩ => (acc0 V c t.val t.isLt).1
    | ⟨5, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = y0 V c t := rfl
theorem after0_4 (c : Dev nD) (t : Fin cfg0.N) : (dat0 V c).after 4 t = (acc0 V c t.val t.isLt).1 := rfl
theorem after0_5 (c : Dev nD) (t : Fin cfg0.N) : (dat0 V c).after 5 t = (acc0 V c t.val t.isLt).2 := rfl

end Cert.Kernel.Fr

end
-- ==== Proof.K.R1Defs.lean ====
import proofs.«120946_j80985903333894_1_alg».proof.Proof.Gen.Kernel.Launch
import proofs.«120946_j80985903333894_1_alg».proof.Proof.Gen.Kernel.Skeleton
import proofs.«120946_j80985903333894_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Fr

open Cert.Kernel Cert.Kernel.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalized, scaled, shifted and clamped rows of point `t`: pointwise in the point's rows and the mean, variance, scale and shift rows. -/
def out1 (c : Dev nD) (t : Fin cfg1.N) : Vec F S8192x32 .f32 :=
  k1_pay1 (iblk1 V c 0 t) (iblk1 V c 2 t) (iblk1 V c 3 t) (iblk1 V c 1 t) (iblk1 V c 4 t)

/-- The region's proof data: the values after point `t` are the inputs' blocks and the point's rows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = out1 V c t := rfl

end Cert.Kernel.Fr

end
-- ==== Proof.K.R2Defs.lean ====
import proofs.«120946_j80985903333894_1_alg».proof.Proof.Gen.Kernel.Launch
import proofs.«120946_j80985903333894_1_alg».proof.Proof.Gen.Kernel.Skeleton
import proofs.«120946_j80985903333894_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Fr

open Cert.Kernel Cert.Kernel.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of the affine map computed at point `t`. -/
def y2 (c : Dev nD) (t : Fin cfg2.N) : Vec F S8192x32 .f32 :=
  k2_pay3 (iblk2 V c 0 t) (iblk2 V c 1 t) (iblk2 V c 2 t)

/-- The running column sums and column sums of squares after point `n`: each point adds those of its rows to the point before's, from zero. -/
def acc2 (c : Dev nD) : (n : ℕ) → n < cfg2.N → Vec F S1x32 .f32 × Vec F S1x32 .f32
  | 0, hn => (k2_pay4 (iblk2 V c 0 ⟨0, hn⟩) (iblk2 V c 1 ⟨0, hn⟩) (iblk2 V c 2 ⟨0, hn⟩) (k2_pay1 (F := F)),
              k2_pay5 (iblk2 V c 0 ⟨0, hn⟩) (iblk2 V c 1 ⟨0, hn⟩) (iblk2 V c 2 ⟨0, hn⟩) (k2_pay2 (F := F)))
  | n + 1, hn => (k2_pay4 (iblk2 V c 0 ⟨n + 1, hn⟩) (iblk2 V c 1 ⟨n + 1, hn⟩) (iblk2 V c 2 ⟨n + 1, hn⟩) (acc2 c n (Nat.lt_of_succ_lt hn)).1,
              k2_pay5 (iblk2 V c 0 ⟨n + 1, hn⟩) (iblk2 V c 1 ⟨n + 1, hn⟩) (iblk2 V c 2 ⟨n + 1, hn⟩) (acc2 c n (Nat.lt_of_succ_lt hn)).2)

/-- The region's proof data: the values after point `t` are the inputs' blocks, the point's rows and the running sums. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => y2 V c t
    | ⟨4, _⟩ => (acc2 V c t.val t.isLt).1
    | ⟨5, _⟩ => (acc2 V c t.val t.isLt).2
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = y2 V c t := rfl
theorem after2_4 (c : Dev nD) (t : Fin cfg2.N) : (dat2 V c).after 4 t = (acc2 V c t.val t.isLt).1 := rfl
theorem after2_5 (c : Dev nD) (t : Fin cfg2.N) : (dat2 V c).after 5 t = (acc2 V c t.val t.isLt).2 := rfl

end Cert.Kernel.Fr

end
-- ==== Proof.K.R3Defs.lean ====
import proofs.«120946_j80985903333894_1_alg».proof.Proof.Gen.Kernel.Launch
import proofs.«120946_j80985903333894_1_alg».proof.Proof.Gen.Kernel.Skeleton
import proofs.«120946_j80985903333894_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Fr

open Cert.Kernel Cert.Kernel.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The normalized, scaled, shifted and clamped rows of point `t`: pointwise in the point's rows and the mean, variance, scale and shift rows. -/
def out3 (c : Dev nD) (t : Fin cfg3.N) : Vec F S8192x32 .f32 :=
  k3_pay1 (iblk3 V c 0 t) (iblk3 V c 2 t) (iblk3 V c 3 t) (iblk3 V c 1 t) (iblk3 V c 4 t)

/-- The region's proof data: the values after point `t` are the inputs' blocks and the point's rows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t = out3 V c t := rfl

end Cert.Kernel.Fr

end
-- ==== Proof.K.R4Defs.lean ====
import proofs.«120946_j80985903333894_1_alg».proof.Proof.Gen.Kernel.Launch
import proofs.«120946_j80985903333894_1_alg».proof.Proof.Gen.Kernel.Skeleton
import proofs.«120946_j80985903333894_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem Idealize.ShloMosaic.Rounds
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at region entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S16x512 .f32 := Memref.whole cc4_scratch0

/-- The accumulated first product after point `n`: each point adds the product of its blocks to the point before's, from zero. -/
def sacc4 (c : Dev nD) : (n : ℕ) → n < cfg4.N → Vec F S16x512 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (sacc4 c n (Nat.lt_of_succ_lt hn))

/-- The second layer applied to the accumulated first product: what the last point stores. -/
def out4 (c : Dev nD) (t : Fin cfg4.N) : Vec F S16x2 .f32 :=
  k4_pay3 (sacc4 V c t.val t.isLt) (iblk4 V c 2 t) (iblk4 V c 3 t) (iblk4 V c 4 t)

/-- The region's invariant before position `n`: from the second point on it carries the accumulated product up to the point before. -/
def PhiS4 (c : Dev nD) : (n : ℕ) → n ≤ cfg4.N → sProp 𝕄
  | 0, _ => Pipeline.ΦA spec4 c
  | n + 1, hn => iprop(owns (c : Thread nD τ) scM4 fullShare (sacc4 V c n hn)
      ∗ Pipeline.scopedRestBut (Ix := Unit) (Name := ℕ) (U := UR sig nD τ) (Lvl := ℕ) (Val := Elt F) spec4 c [cc4_scratch0]
      ∗ (∃ r, prngReg c r))

/-- The region's proof data. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = iblk4 V c 3 t := rfl
theorem after4_4 (c : Dev nD) (t : Fin cfg4.N) : (dat4 V c).after 4 t = iblk4 V c 4 t := rfl
theorem after4_5 (c : Dev nD) (t : Fin cfg4.N) : (dat4 V c).after 5 t = out4 V c t := rfl

end Cert.Kernel.Fr

end
-- ==== Proof.K.Fold.lean ====
import proofs.«120946_j80985903333894_1_alg».proof.Proof.K.R0Defs
import proofs.«120946_j80985903333894_1_alg».proof.Proof.K.R1Defs
import proofs.«120946_j80985903333894_1_alg».proof.Proof.K.R2Defs
import proofs.«120946_j80985903333894_1_alg».proof.Proof.K.R3Defs
import proofs.«120946_j80985903333894_1_alg».proof.Proof.K.R4Defs
import proofs.«120946_j80985903333894_1_alg».proof.Proof.Gen.Kernel.Regions

noncomputable section

namespace Cert.Kernel.Fr

open Cert.Kernel Cert.Kernel.Gen Idealize.ShloMosaic TcCoe Pipeline StableHlo

variable {F : FTy → Type} [FloatOps F] (m : (ℓ : Loc nD τ sig) → Buf (Elt F) ℓ) (c : Dev nD)

abbrev W0 : Valuation τ sig (Elt F) := fun b => m (c, b)
abbrev W1 := after hostOps0 (W0 m c)
abbrev E1 : (c : Dev nD) → (b : Ref sig .tc) → Buf (Elt F) ((c : Thread nD τ).loc b) := fun c b => W1 m c b
def W2 := withArrays spec0 c (W1 m c) fun w => (dat0 (E1 m) c).arrAt w cfg0.N
abbrev W3 := after hostOps1 (W2 m c)
abbrev E3 : (c : Dev nD) → (b : Ref sig .tc) → Buf (Elt F) ((c : Thread nD τ).loc b) := fun c b => W3 m c b
def W4 := withArrays spec1 c (W3 m c) fun w => (dat1 (E3 m) c).arrAt w cfg1.N
abbrev W5 := after hostOps2 (W4 m c)
abbrev E5 : (c : Dev nD) → (b : Ref sig .tc) → Buf (Elt F) ((c : Thread nD τ).loc b) := fun c b => W5 m c b
def W6 := withArrays spec2 c (W5 m c) fun w => (dat2 (E5 m) c).arrAt w cfg2.N
abbrev W7 := after hostOps3 (W6 m c)
abbrev E7 : (c : Dev nD) → (b : Ref sig .tc) → Buf (Elt F) ((c : Thread nD τ).loc b) := fun c b => W7 m c b
def W8 := withArrays spec3 c (W7 m c) fun w => (dat3 (E7 m) c).arrAt w cfg3.N
abbrev W9 := after hostOps4 (W8 m c)
abbrev W10 := after hostOps4_1 (W9 m c)
abbrev W11 := after hostOps4_2 (W10 m c)
abbrev W12 := after hostOps4_3 (W11 m c)
abbrev W13 := after hostOps4_4 (W12 m c)
abbrev E13 : (c : Dev nD) → (b : Ref sig .tc) → Buf (Elt F) ((c : Thread nD τ).loc b) := fun c b => W13 m c b
def W14 := withArrays spec4 c (W13 m c) fun w => (dat4 (E13 m) c).arrAt w cfg4.N

/-- A reference outside the image of a region's arrays is left as it was. -/
private theorem rest {gr W : ℕ} {win : Fin W → WinSpec sig gr} {V : Valuation τ sig (Elt F)} {A} (b : Ref sig .tc)
    (hb : b ∉ Finset.univ.image (arrRef win)) : withArrays win c V A b = V b :=
  withArrays_of_ne win c V A b fun w e => hb (Finset.mem_image.mpr ⟨w, Finset.mem_univ _, e⟩)

theorem W2_arr (w : Fin cfg0.W) :
    W2 m c (arrRef spec0 w) = (dat0 (E1 m) c).arrAt w cfg0.N :=
  withArrays_arr spec0 launch0.win.arr_inj c _ _ w
theorem W2_of_ne (b : Ref sig .tc) (hb : ∀ w, arrRef spec0 w ≠ b) :
    W2 m c b = W1 m c b :=
  withArrays_of_ne spec0 c _ _ b hb
abbrev XW2 : (c : Dev nD) → (b : Ref sig .tc) → Buf (Elt F) ((c : Thread nD τ).loc b) := fun c b => W2 m c b
theorem hF0 (w : Fin cfg0.W) : (dat0 (E1 m) c).arrAt w cfg0.N = XW2 m c (arrRef spec0 w) :=
  (W2_arr m c w).symm
theorem hrest0 : ∀ b, b ∉ Finset.univ.image (arrRef spec0) → XW2 m c b = E1 m c b :=
  rest c

theorem W4_arr (w : Fin cfg1.W) :
    W4 m c (arrRef spec1 w) = (dat1 (E3 m) c).arrAt w cfg1.N :=
  withArrays_arr spec1 launch1.win.arr_inj c _ _ w
theorem W4_of_ne (b : Ref sig .tc) (hb : ∀ w, arrRef spec1 w ≠ b) :
    W4 m c b = W3 m c b :=
  withArrays_of_ne spec1 c _ _ b hb
abbrev XW4 : (c : Dev nD) → (b : Ref sig .tc) → Buf (Elt F) ((c : Thread nD τ).loc b) := fun c b => W4 m c b
theorem hF1 (w : Fin cfg1.W) : (dat1 (E3 m) c).arrAt w cfg1.N = XW4 m c (arrRef spec1 w) :=
  (W4_arr m c w).symm
theorem hrest1 : ∀ b, b ∉ Finset.univ.image (arrRef spec1) → XW4 m c b = E3 m c b :=
  rest c

theorem W6_arr (w : Fin cfg2.W) :
    W6 m c (arrRef spec2 w) = (dat2 (E5 m) c).arrAt w cfg2.N :=
  withArrays_arr spec2 launch2.win.arr_inj c _ _ w
theorem W6_of_ne (b : Ref sig .tc) (hb : ∀ w, arrRef spec2 w ≠ b) :
    W6 m c b = W5 m c b :=
  withArrays_of_ne spec2 c _ _ b hb
abbrev XW6 : (c : Dev nD) → (b : Ref sig .tc) → Buf (Elt F) ((c : Thread nD τ).loc b) := fun c b => W6 m c b
theorem hF2 (w : Fin cfg2.W) : (dat2 (E5 m) c).arrAt w cfg2.N = XW6 m c (arrRef spec2 w) :=
  (W6_arr m c w).symm
theorem hrest2 : ∀ b, b ∉ Finset.univ.image (arrRef spec2) → XW6 m c b = E5 m c b :=
  rest c

theorem W8_arr (w : Fin cfg3.W) :
    W8 m c (arrRef spec3 w) = (dat3 (E7 m) c).arrAt w cfg3.N :=
  withArrays_arr spec3 launch3.win.arr_inj c _ _ w
theorem W8_of_ne (b : Ref sig .tc) (hb : ∀ w, arrRef spec3 w ≠ b) :
    W8 m c b = W7 m c b :=
  withArrays_of_ne spec3 c _ _ b hb
abbrev XW8 : (c : Dev nD) → (b : Ref sig .tc) → Buf (Elt F) ((c : Thread nD τ).loc b) := fun c b => W8 m c b
theorem hF3 (w : Fin cfg3.W) : (dat3 (E7 m) c).arrAt w cfg3.N = XW8 m c (arrRef spec3 w) :=
  (W8_arr m c w).symm
theorem hrest3 : ∀ b, b ∉ Finset.univ.image (arrRef spec3) → XW8 m c b = E7 m c b :=
  rest c

theorem W14_arr (w : Fin cfg4.W) :
    W14 m c (arrRef spec4 w) = (dat4 (E13 m) c).arrAt w cfg4.N :=
  withArrays_arr spec4 launch4.win.arr_inj c _ _ w
theorem W14_of_ne (b : Ref sig .tc) (hb : ∀ w, arrRef spec4 w ≠ b) :
    W14 m c b = W13 m c b :=
  withArrays_of_ne spec4 c _ _ b hb
abbrev XW14 : (c : Dev nD) → (b : Ref sig .tc) → Buf (Elt F) ((c : Thread nD τ).loc b) := fun c b => W14 m c b
theorem hF4 (w : Fin cfg4.W) : (dat4 (E13 m) c).arrAt w cfg4.N = XW14 m c (arrRef spec4 w) :=
  (W14_arr m c w).symm
theorem hrest4 : ∀ b, b ∉ Finset.univ.image (arrRef spec4) → XW14 m c b = E13 m c b :=
  rest c

end Cert.Kernel.Fr

end
-- ==== Proof.K.Keep.lean ====
import proofs.«120946_j80985903333894_1_alg».proof.Proof.K.Fold

noncomputable section

namespace Cert.Kernel.Fr

open Cert.Kernel Cert.Kernel.Gen Idealize.ShloMosaic TcCoe Pipeline StableHlo

variable {F : FTy → Type} [FloatOps F] (m : (ℓ : Loc nD τ sig) → Buf (Elt F) ℓ)

/-- A reference nothing writes: it is in no stretch's write list and is no region's array; and it is not scoped. -/
structure Kept (r : Ref sig .tc) : Prop where
  u : ¬ (Proc.devRef (τ := τ) .tc r).isScoped
  h0 : r ∉ hostOps0_W
  r0 : ∀ w, arrRef spec0 w ≠ r
  h1 : r ∉ hostOps1_W
  r1 : ∀ w, arrRef spec1 w ≠ r
  h2 : r ∉ hostOps2_W
  r2 : ∀ w, arrRef spec2 w ≠ r
  h3 : r ∉ hostOps3_W
  r3 : ∀ w, arrRef spec3 w ≠ r
  h4 : r ∉ hostOps4_W
  h4_1 : r ∉ hostOps4_1_W
  h4_2 : r ∉ hostOps4_2_W
  h4_3 : r ∉ hostOps4_3_W
  h4_4 : r ∉ hostOps4_4_W
  r4 : ∀ w, arrRef spec4 w ≠ r

section
variable {r : Ref sig .tc} (k : Kept r) (c : Dev nD)
include k

theorem keepW0 : W0 m c r = m ((c : Thread nD τ).loc r) := rfl
theorem keepW1 : W1 m c r = m ((c : Thread nD τ).loc r) :=
  (after_of_writes_sub hostOps0 _ hostOps0_writes k.h0).trans (keepW0 m k c)
theorem keepW2 : W2 m c r = m ((c : Thread nD τ).loc r) :=
  (W2_of_ne m c r k.r0).trans (keepW1 m k c)
theorem keepW3 : W3 m c r = m ((c : Thread nD τ).loc r) :=
  (after_of_writes_sub hostOps1 _ hostOps1_writes k.h1).trans (keepW2 m k c)
theorem keepW4 : W4 m c r = m ((c : Thread nD τ).loc r) :=
  (W4_of_ne m c r k.r1).trans (keepW3 m k c)
theorem keepW5 : W5 m c r = m ((c : Thread nD τ).loc r) :=
  (after_of_writes_sub hostOps2 _ hostOps2_writes k.h2).trans (keepW4 m k c)
theorem keepW6 : W6 m c r = m ((c : Thread nD τ).loc r) :=
  (W6_of_ne m c r k.r2).trans (keepW5 m k c)
theorem keepW7 : W7 m c r = m ((c : Thread nD τ).loc r) :=
  (after_of_writes_sub hostOps3 _ hostOps3_writes k.h3).trans (keepW6 m k c)
theorem keepW8 : W8 m c r = m ((c : Thread nD τ).loc r) :=
  (W8_of_ne m c r k.r3).trans (keepW7 m k c)
theorem keepW9 : W9 m c r = m ((c : Thread nD τ).loc r) :=
  (after_of_writes_sub hostOps4 _ hostOps4_writes k.h4).trans (keepW8 m k c)
theorem keepW10 : W10 m c r = m ((c : Thread nD τ).loc r) :=
  (after_of_writes_sub hostOps4_1 _ hostOps4_1_writes k.h4_1).trans (keepW9 m k c)
theorem keepW11 : W11 m c r = m ((c : Thread nD τ).loc r) :=
  (after_of_writes_sub hostOps4_2 _ hostOps4_2_writes k.h4_2).trans (keepW10 m k c)
theorem keepW12 : W12 m c r = m ((c : Thread nD τ).loc r) :=
  (after_of_writes_sub hostOps4_3 _ hostOps4_3_writes k.h4_3).trans (keepW11 m k c)
theorem keepW13 : W13 m c r = m ((c : Thread nD τ).loc r) :=
  (after_of_writes_sub hostOps4_4 _ hostOps4_4_writes k.h4_4).trans (keepW12 m k c)
theorem keepW14 : W14 m c r = m ((c : Thread nD τ).loc r) :=
  (W14_of_ne m c r k.r4).trans (keepW13 m k c)

end

theorem kept_arg0 : Kept main_arg0 := by constructor <;> decide
theorem kept_arg1 : Kept main_arg1 := by constructor <;> decide
theorem kept_arg2 : Kept main_arg2 := by constructor <;> decide
theorem kept_arg3 : Kept main_arg3 := by constructor <;> decide
theorem kept_arg4 : Kept main_arg4 := by constructor <;> decide
theorem kept_arg5 : Kept main_arg5 := by constructor <;> decide
theorem kept_arg6 : Kept main_arg6 := by constructor <;> decide
theorem kept_arg7 : Kept main_arg7 := by constructor <;> decide
theorem kept_arg8 : Kept main_arg8 := by constructor <;> decide
theorem kept_arg9 : Kept main_arg9 := by constructor <;> decide
theorem kept_arg10 : Kept main_arg10 := by constructor <;> decide
theorem kept_arg11 : Kept main_arg11 := by constructor <;> decide
theorem kept_arg12 : Kept main_arg12 := by constructor <;> decide
theorem kept_arg13 : Kept main_arg13 := by constructor <;> decide
theorem kept_arg14 : Kept main_arg14 := by constructor <;> decide
theorem kept_arg15 : Kept main_arg15 := by constructor <;> decide
theorem kept_arg16 : Kept main_arg16 := by constructor <;> decide

theorem frame_post (c : Dev nD) (s : MemSt nD τ sig (Elt F))
    (h : ∀ b ∈ ucRefs τ sig, s.mem (((c : Thread nD τ)).1, b) = W14 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16) :=
  have e {r : Ref sig .tc} (k : Kept r) : s.mem ((c.tc : Thread nD τ).loc r) = m ((c.tc : Thread nD τ).loc r) :=
    (h _ (Finset.mem_filter.mpr ⟨devRef_mem_tcRefs r, k.u⟩)).trans (keepW14 m k c)
  ⟨e kept_arg0, e kept_arg1, e kept_arg2, e kept_arg3, e kept_arg4, e kept_arg5, e kept_arg6, e kept_arg7, e kept_arg8, e kept_arg9, e kept_arg10, e kept_arg11, e kept_arg12, e kept_arg13, e kept_arg14, e kept_arg15, e kept_arg16⟩

end Cert.Kernel.Fr

end
-- ==== Proof.FrameLib.lean ====
import Idealize.ShloMosaic.Lib.Pipeline.Value

namespace Cert.FrameLib

open Idealize.ShloMosaic

variable {F : FTy → Type} [FloatOps F]

/-- The all-zero offsets of a rank-two access, as a constant function. -/
theorem zero2 : (![0, 0] : Fin 2 → ℕ) = fun _ => 0 := funext fun a => by fin_cases a <;> rfl

/-- Stores whose last one goes through the whole shape at zero offsets cover every index. -/
theorem cover_unit_zero {S : Shape} {e : EltTy} {off : Fin S.rank → ℕ} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨⟨Rect.unit off S.size inb, w⟩, List.mem_cons.mpr (Or.inl rfl), View.mem_set_unit_zero h inb y⟩

end Cert.FrameLib
-- ==== Proof.K.R0Body.lean ====
import proofs.«120946_j80985903333894_1_alg».proof.Proof.K.R0Defs
import proofs.«120946_j80985903333894_1_alg».proof.Proof.FrameLib

namespace Cert.Kernel.Fr

open Cert.Kernel Cert.Kernel.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

-- One run of the body: the two sums start again from their zero rows exactly when the condition holds.
private theorem kernel0_run (c : Dev nD) (E : Set ℕ) (i : grid0.Coords) (arg1 : Memref sig .tc .vmem S8192x64 .f32)
    (arg2 : Memref sig .tc .vmem S64x32 .bf16) (arg4 : Memref sig .tc .vmem S8192x32 .f32) (arg3 arg5 arg6 : Memref sig .tc .vmem S1x32 .f32)
    (harg1 : arg1.IsWhole) (harg2 : arg2.IsWhole) (harg3 : arg3.IsWhole) (harg4 : arg4.IsWhole) (harg5 : arg5.IsWhole) (harg6 : arg6.IsWhole)
    (x1 : Vec F S8192x64 .f32) (x2 : Vec F S64x32 .bf16) (x3 a4 a5 b4 b5 : Vec F S1x32 .f32) (d : Vec F S8192x32 .f32)
    (hb : cond0 i ∧ b4 = k0_pay1 ∧ b5 = k0_pay2 ∨ ¬cond0 i ∧ b4 = a4 ∧ b5 = a5) (K : PUnit → sProp (MT nD τ sig Unit (Elt F) ℕ (UR sig nD τ) ℕ)) :
    iprop(owns c.tc arg1 fullShare x1 ∗ owns c.tc arg2 fullShare x2 ∗ owns c.tc arg3 fullShare x3
        ∗ owns c.tc arg4 fullShare d ∗ owns c.tc arg5 fullShare a4 ∗ owns c.tc arg6 fullShare a5
        ∗ (iprop(owns c.tc arg1 fullShare x1 ∗ owns c.tc arg2 fullShare x2 ∗ owns c.tc arg3 fullShare x3
            ∗ owns c.tc arg4 fullShare (k0_pay3 x1 x2 x3) ∗ owns c.tc arg5 fullShare (k0_pay4 x1 x2 x3 b4)
            ∗ owns c.tc arg6 fullShare (k0_pay5 x1 x2 x3 b5)) -∗ K ⟨⟩))
      ⊢ wp frame (wpE (defs₀ (F := F)) Variants.none c none) E (cc0__linear_stats_kernel i arg1 harg1 arg2 harg2 arg3 harg3 arg4 harg4 arg5 harg5 arg6 harg6) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%f4, -, H4⟩, ⟨%f5, %hf5, H5⟩, ⟨%f6, %hf6, H6⟩, Hk⟩
  subst hf1 hf2 hf3 hf5 hf6
  obtain ⟨hc, rfl, rfl⟩ | ⟨hc, rfl, rfl⟩ := hb <;>
  · sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4] <;> [skip; isplitl [H5]] <;>
    · iexists _; isplitr
      swap; · first | iexact H4 | iexact H5 | iexact H6
      ipureintro
      try sl_unfold_words
      refine (View.read_writes_eq_canon _ _ _ (cover_unit_zero zero2 _ _ _)).trans ?_
      first
        | rw [View.canon_unit_zero zero2]
        | rw [View.canon_cons_unit_zero (S := S1x32) zero2, View.readCov_unit_zero (S := S1x32) _ zero2]
      simp only [View.readAt_eq_ld, View.ld_unit_zero (S := S8192x64) zero2, View.ld_unit_zero (S := S64x32) zero2,
        View.ld_unit_zero (S := S1x32) zero2]

private theorem before0_in (c : Dev nD) (t : Fin cfg0.N) :
    (∀ d, (dat0 V c).before 0 t d = iblk0 V c 0 t) ∧ (∀ d, (dat0 V c).before 1 t d = iblk0 V c 1 t) ∧
    ∀ d, (dat0 V c).before 2 t d = iblk0 V c 2 t := by
  refine ⟨?_, ?_, ?_⟩ <;> exact fun d =>
    ((dat0 V c).before_in_eq_fetched _ rfl (fun _ => rfl) (fun _ _ _ => rfl)
      (fun t => by unfold Dat.blockOf; rw [A_eq0]; rfl) t d).trans
    (by unfold Dat.fetched Dat.blockOf iblk0; rw [A_eq0]; try rfl)

-- The running sums at a point continue those of the point before; at the first point they start from the zero rows.
private theorem acc0_step (c : Dev nD) (t : Fin cfg0.N) (d4 d5) :
    ∃ b4 b5, (cond0 (grid0.coords t) ∧ b4 = k0_pay1 ∧ b5 = k0_pay2 ∨
        ¬cond0 (grid0.coords t) ∧ b4 = (dat0 V c).before 4 t d4 ∧ b5 = (dat0 V c).before 5 t d5) ∧
      acc0 V c t.val t.isLt = (k0_pay4 (iblk0 V c 0 t) (iblk0 V c 1 t) (iblk0 V c 2 t) b4,
        k0_pay5 (iblk0 V c 0 t) (iblk0 V c 1 t) (iblk0 V c 2 t) b5) := by
  obtain ⟨_ | n, hn⟩ := t
  · exact ⟨_, _, .inl ⟨(hcond0 _).mpr rfl, rfl, rfl⟩, rfl⟩
  · have hN : n + 1 < 16 := lt_of_lt_of_eq hn N_0
    refine ⟨_, _, .inr ⟨mt (hcond0 _).mp (by dsimp only; omega), rfl, rfl⟩, ?_⟩
    rw [Dat.before_out_kept _ 4 rfl ⟨n + 1, hn⟩ n.succ_ne_zero
        (Bool.eq_false_iff.mpr fun h => by have := (flush0_4 _).mp h; dsimp only at this; omega) (fun _ => rfl) (fun _ _ => rfl),
      Dat.before_out_kept _ 5 rfl ⟨n + 1, hn⟩ n.succ_ne_zero
        (Bool.eq_false_iff.mpr fun h => by have := (flush0_5 _).mp h; dsimp only at this; omega) (fun _ => rfl) (fun _ _ => rfl),
      after0_4, after0_5]
    rfl

theorem body_obligation0 (c : Dev nD) : BodyObligation (dat0 (F := F) V c) (defs₀ (F := F)) Variants.none () Set.univ := fun t => by
  obtain ⟨h0, h1, h2⟩ := before0_in V c t
  rw [bigSep_W0, bigSep_W0]
  show _ ⊢ wp _ _ _ (bodyAt0 t) _
  simp only [h0, h1, h2, after0_4, after0_5]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  obtain ⟨b4, b5, hb, ha⟩ := acc0_step V c t d4 d5
  simp only [ha]
  iapply (kernel0_run c Set.univ (grid0.coords t) _ _ _ _ _ _ _ _ _ _ _ _
    (iblk0 V c 0 t) (iblk0 V c 1 t) (iblk0 V c 2 t) ((dat0 V c).before 4 t d4) ((dat0 V c).before 5 t d5) b4 b5
    ((dat0 V c).before 3 t d3) hb _)
  iframe
  iintro H; iexact H

end Cert.Kernel.Fr
-- ==== Proof.K.R1Body.lean ====
import proofs.«120946_j80985903333894_1_alg».proof.Proof.K.R1Defs
import proofs.«120946_j80985903333894_1_alg».proof.Proof.FrameLib

namespace Cert.Kernel.Fr

open Cert.Kernel Cert.Kernel.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

private theorem found1 (c : Dev nD) (t : Fin cfg1.N) :
    (∀ d, (dat1 V c).before 0 t d = iblk1 V c 0 t) ∧ (∀ d, (dat1 V c).before 1 t d = iblk1 V c 1 t) ∧
    (∀ d, (dat1 V c).before 2 t d = iblk1 V c 2 t) ∧ (∀ d, (dat1 V c).before 3 t d = iblk1 V c 3 t) ∧
    ∀ d, (dat1 V c).before 4 t d = iblk1 V c 4 t := by
  refine ⟨?_, ?_, ?_, ?_, ?_⟩ <;> exact fun d =>
    ((dat1 V c).before_in_eq_fetched _ rfl (fun _ => rfl) (fun _ _ _ => rfl)
      (fun t => by unfold Dat.blockOf; rw [A_eq1]; rfl) t d).trans
    (by unfold Dat.fetched Dat.blockOf iblk1; rw [A_eq1]; try rfl)

private theorem sound_kernel1 (c : Dev nD) (E : Set ℕ) (i : grid1.Coords)
    (ay ao : Memref sig .tc .vmem S8192x32 .f32) (am av ag ab : Memref sig .tc .vmem S1x32 .f32)
    (hy : ay.IsWhole) (hm : am.IsWhole) (hv : av.IsWhole) (hg : ag.IsWhole) (hb : ab.IsWhole) (ho : ao.IsWhole)
    (y d : Vec F S8192x32 .f32) (mu var g be : Vec F S1x32 .f32) (K : PUnit → sProp (MT nD τ sig Unit (Elt F) ℕ (UR sig nD τ) ℕ)) :
    iprop(owns c.tc ay fullShare y ∗ owns c.tc am fullShare mu ∗ owns c.tc av fullShare var ∗ owns c.tc ag fullShare g
        ∗ owns c.tc ab fullShare be ∗ owns c.tc ao fullShare d
        ∗ (iprop(owns c.tc ay fullShare y ∗ owns c.tc am fullShare mu ∗ owns c.tc av fullShare var ∗ owns c.tc ag fullShare g
              ∗ owns c.tc ab fullShare be ∗ owns c.tc ao fullShare (k1_pay1 y var g mu be)) -∗ K ⟨⟩))
      ⊢ wp frame (wpE (defs₀ (F := F)) Variants.none c none) E
          (cc1__normalize_relu_kernel i ay hy am hm av hv ag hg ab hb ao ho) K := by
  simp only [cc1__normalize_relu_kernel_eq_skeleton]; unfold cc1__normalize_relu_kernel_skel
  unfold owns
  iintro ⟨⟨%f0, %e0, H0⟩, ⟨%f1, %e1, H1⟩, ⟨%f2, %e2, H2⟩, ⟨%f3, %e3, H3⟩, ⟨%f4, %e4, H4⟩, ⟨%f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_unit_zero zero2 _ _ _), View.canon_unit_zero (S := S8192x32) zero2]
  simp only [View.readAt_eq_ld, View.ld_unit_zero (S := S8192x32) zero2, View.ld_unit_zero (S := S1x32) zero2]

theorem body_obligation1 (c : Dev nD) : BodyObligation (dat1 (F := F) V c) (defs₀ (F := F)) Variants.none () Set.univ := fun t => by
  obtain ⟨h0, h1, h2, h3, h4⟩ := found1 V c t
  rw [bigSep_W1, bigSep_W1]
  show _ ⊢ wp _ _ _ (bodyAt1 t) _
  simp only [h0, h1, h2, h3, h4]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) ((dat1 V c).before 5 t d5) (iblk1 V c 1 t) (iblk1 V c 2 t) (iblk1 V c 3 t) (iblk1 V c 4 t) _)
  iframe
  iintro H; iexact H

end Cert.Kernel.Fr
-- ==== Proof.K.R2Body.lean ====
import proofs.«120946_j80985903333894_1_alg».proof.Proof.K.R2Defs
import proofs.«120946_j80985903333894_1_alg».proof.Proof.FrameLib

namespace Cert.Kernel.Fr

open Cert.Kernel Cert.Kernel.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

abbrev cond2 (i : grid2.Coords) : Prop :=
  (Scalar.cmpi .ne (Scalar.extui (Scalar.cmpi .eq (BitVec.ofNat 32 (i 0).val) 0#32)) 0#32) = 1#1

theorem hcond2 : ∀ t : Fin cfg2.N, cond2 (grid2.coords t) ↔ t.val % 16 = 0 :=
  (by decide +kernel : ∀ t : Fin grid2.N, cond2 (grid2.coords t) ↔ t.val % 16 = 0)

-- One run of the body: the two sums start again from their zero rows exactly when the condition holds.
private theorem kernel2_run (c : Dev nD) (E : Set ℕ) (i : grid2.Coords) (arg1 : Memref sig .tc .vmem S8192x32 .f32)
    (arg2 : Memref sig .tc .vmem S32x32 .bf16) (arg4 : Memref sig .tc .vmem S8192x32 .f32) (arg3 arg5 arg6 : Memref sig .tc .vmem S1x32 .f32)
    (harg1 : arg1.IsWhole) (harg2 : arg2.IsWhole) (harg3 : arg3.IsWhole) (harg4 : arg4.IsWhole) (harg5 : arg5.IsWhole) (harg6 : arg6.IsWhole)
    (x1 : Vec F S8192x32 .f32) (x2 : Vec F S32x32 .bf16) (x3 a4 a5 b4 b5 : Vec F S1x32 .f32) (d : Vec F S8192x32 .f32)
    (hb : cond2 i ∧ b4 = k2_pay1 ∧ b5 = k2_pay2 ∨ ¬cond2 i ∧ b4 = a4 ∧ b5 = a5) (K : PUnit → sProp (MT nD τ sig Unit (Elt F) ℕ (UR sig nD τ) ℕ)) :
    iprop(owns c.tc arg1 fullShare x1 ∗ owns c.tc arg2 fullShare x2 ∗ owns c.tc arg3 fullShare x3
        ∗ owns c.tc arg4 fullShare d ∗ owns c.tc arg5 fullShare a4 ∗ owns c.tc arg6 fullShare a5
        ∗ (iprop(owns c.tc arg1 fullShare x1 ∗ owns c.tc arg2 fullShare x2 ∗ owns c.tc arg3 fullShare x3
            ∗ owns c.tc arg4 fullShare (k2_pay3 x1 x2 x3) ∗ owns c.tc arg5 fullShare (k2_pay4 x1 x2 x3 b4)
            ∗ owns c.tc arg6 fullShare (k2_pay5 x1 x2 x3 b5)) -∗ K ⟨⟩))
      ⊢ wp frame (wpE (defs₀ (F := F)) Variants.none c none) E (cc2__linear_stats_kernel i arg1 harg1 arg2 harg2 arg3 harg3 arg4 harg4 arg5 harg5 arg6 harg6) K := by
  simp only [cc2__linear_stats_kernel_eq_skeleton]; unfold cc2__linear_stats_kernel_skel
  unfold owns
  iintro ⟨⟨%f1, %hf1, H1⟩, ⟨%f2, %hf2, H2⟩, ⟨%f3, %hf3, H3⟩, ⟨%f4, -, H4⟩, ⟨%f5, %hf5, H5⟩, ⟨%f6, %hf6, H6⟩, Hk⟩
  subst hf1 hf2 hf3 hf5 hf6
  obtain ⟨hc, rfl, rfl⟩ | ⟨hc, rfl, rfl⟩ := hb <;>
  · sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4] <;> [skip; isplitl [H5]] <;>
    · iexists _; isplitr
      swap; · first | iexact H4 | iexact H5 | iexact H6
      ipureintro
      try sl_unfold_words
      refine (View.read_writes_eq_canon _ _ _ (cover_unit_zero zero2 _ _ _)).trans ?_
      first
        | rw [View.canon_unit_zero zero2]
        | rw [View.canon_cons_unit_zero (S := S1x32) zero2, View.readCov_unit_zero (S := S1x32) _ zero2]
      simp only [View.readAt_eq_ld, View.ld_unit_zero (S := S8192x32) zero2, View.ld_unit_zero (S := S32x32) zero2,
        View.ld_unit_zero (S := S1x32) zero2]

private theorem before2_in (c : Dev nD) (t : Fin cfg2.N) :
    (∀ d, (dat2 V c).before 0 t d = iblk2 V c 0 t) ∧ (∀ d, (dat2 V c).before 1 t d = iblk2 V c 1 t) ∧
    ∀ d, (dat2 V c).before 2 t d = iblk2 V c 2 t := by
  refine ⟨?_, ?_, ?_⟩ <;> exact fun d =>
    ((dat2 V c).before_in_eq_fetched _ rfl (fun _ => rfl) (fun _ _ _ => rfl)
      (fun t => by unfold Dat.blockOf; rw [A_eq2]; rfl) t d).trans
    (by unfold Dat.fetched Dat.blockOf iblk2; rw [A_eq2]; try rfl)

-- The running sums at a point continue those of the point before; at the first point they start from the zero rows.
private theorem acc2_step (c : Dev nD) (t : Fin cfg2.N) (d4 d5) :
    ∃ b4 b5, (cond2 (grid2.coords t) ∧ b4 = k2_pay1 ∧ b5 = k2_pay2 ∨
        ¬cond2 (grid2.coords t) ∧ b4 = (dat2 V c).before 4 t d4 ∧ b5 = (dat2 V c).before 5 t d5) ∧
      acc2 V c t.val t.isLt = (k2_pay4 (iblk2 V c 0 t) (iblk2 V c 1 t) (iblk2 V c 2 t) b4,
        k2_pay5 (iblk2 V c 0 t) (iblk2 V c 1 t) (iblk2 V c 2 t) b5) := by
  obtain ⟨_ | n, hn⟩ := t
  · exact ⟨_, _, .inl ⟨(hcond2 _).mpr rfl, rfl, rfl⟩, rfl⟩
  · have hN : n + 1 < 16 := lt_of_lt_of_eq hn N_2
    refine ⟨_, _, .inr ⟨mt (hcond2 _).mp (by dsimp only; omega), rfl, rfl⟩, ?_⟩
    rw [Dat.before_out_kept _ 4 rfl ⟨n + 1, hn⟩ n.succ_ne_zero
        (Bool.eq_false_iff.mpr fun h => by have := (flush2_4 _).mp h; dsimp only at this; omega) (fun _ => rfl) (fun _ _ => rfl),
      Dat.before_out_kept _ 5 rfl ⟨n + 1, hn⟩ n.succ_ne_zero
        (Bool.eq_false_iff.mpr fun h => by have := (flush2_5 _).mp h; dsimp only at this; omega) (fun _ => rfl) (fun _ _ => rfl),
      after2_4, after2_5]
    rfl

theorem body_obligation2 (c : Dev nD) : BodyObligation (dat2 (F := F) V c) (defs₀ (F := F)) Variants.none () Set.univ := fun t => by
  obtain ⟨h0, h1, h2⟩ := before2_in V c t
  rw [bigSep_W2, bigSep_W2]
  show _ ⊢ wp _ _ _ (bodyAt2 t) _
  simp only [h0, h1, h2, after2_4, after2_5]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  obtain ⟨b4, b5, hb, ha⟩ := acc2_step V c t d4 d5
  simp only [ha]
  iapply (kernel2_run c Set.univ (grid2.coords t) _ _ _ _ _ _ _ _ _ _ _ _
    (iblk2 V c 0 t) (iblk2 V c 1 t) (iblk2 V c 2 t) ((dat2 V c).before 4 t d4) ((dat2 V c).before 5 t d5) b4 b5
    ((dat2 V c).before 3 t d3) hb _)
  iframe
  iintro H; iexact H

end Cert.Kernel.Fr
-- ==== Proof.K.R3Body.lean ====
import proofs.«120946_j80985903333894_1_alg».proof.Proof.K.R3Defs
import proofs.«120946_j80985903333894_1_alg».proof.Proof.FrameLib

namespace Cert.Kernel.Fr

open Cert.Kernel Cert.Kernel.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

private theorem found1 (c : Dev nD) (t : Fin cfg3.N) :
    (∀ d, (dat3 V c).before 0 t d = iblk3 V c 0 t) ∧ (∀ d, (dat3 V c).before 1 t d = iblk3 V c 1 t) ∧
    (∀ d, (dat3 V c).before 2 t d = iblk3 V c 2 t) ∧ (∀ d, (dat3 V c).before 3 t d = iblk3 V c 3 t) ∧
    ∀ d, (dat3 V c).before 4 t d = iblk3 V c 4 t := by
  refine ⟨?_, ?_, ?_, ?_, ?_⟩ <;> exact fun d =>
    ((dat3 V c).before_in_eq_fetched _ rfl (fun _ => rfl) (fun _ _ _ => rfl)
      (fun t => by unfold Dat.blockOf; rw [A_eq3]; rfl) t d).trans
    (by unfold Dat.fetched Dat.blockOf iblk3; rw [A_eq3]; try rfl)

private theorem sound_kernel3 (c : Dev nD) (E : Set ℕ) (i : grid3.Coords)
    (ay ao : Memref sig .tc .vmem S8192x32 .f32) (am av ag ab : Memref sig .tc .vmem S1x32 .f32)
    (hy : ay.IsWhole) (hm : am.IsWhole) (hv : av.IsWhole) (hg : ag.IsWhole) (hb : ab.IsWhole) (ho : ao.IsWhole)
    (y d : Vec F S8192x32 .f32) (mu var g be : Vec F S1x32 .f32) (K : PUnit → sProp (MT nD τ sig Unit (Elt F) ℕ (UR sig nD τ) ℕ)) :
    iprop(owns c.tc ay fullShare y ∗ owns c.tc am fullShare mu ∗ owns c.tc av fullShare var ∗ owns c.tc ag fullShare g
        ∗ owns c.tc ab fullShare be ∗ owns c.tc ao fullShare d
        ∗ (iprop(owns c.tc ay fullShare y ∗ owns c.tc am fullShare mu ∗ owns c.tc av fullShare var ∗ owns c.tc ag fullShare g
              ∗ owns c.tc ab fullShare be ∗ owns c.tc ao fullShare (k3_pay1 y var g mu be)) -∗ K ⟨⟩))
      ⊢ wp frame (wpE (defs₀ (F := F)) Variants.none c none) E
          (cc3__normalize_relu_kernel i ay hy am hm av hv ag hg ab hb ao ho) K := by
  simp only [cc3__normalize_relu_kernel_eq_skeleton]; unfold cc3__normalize_relu_kernel_skel
  unfold owns
  iintro ⟨⟨%f0, %e0, H0⟩, ⟨%f1, %e1, H1⟩, ⟨%f2, %e2, H2⟩, ⟨%f3, %e3, H3⟩, ⟨%f4, %e4, H4⟩, ⟨%f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_unit_zero zero2 _ _ _), View.canon_unit_zero (S := S8192x32) zero2]
  simp only [View.readAt_eq_ld, View.ld_unit_zero (S := S8192x32) zero2, View.ld_unit_zero (S := S1x32) zero2]

theorem body_obligation3 (c : Dev nD) : BodyObligation (dat3 (F := F) V c) (defs₀ (F := F)) Variants.none () Set.univ := fun t => by
  obtain ⟨h0, h1, h2, h3, h4⟩ := found1 V c t
  rw [bigSep_W3, bigSep_W3]
  show _ ⊢ wp _ _ _ (bodyAt3 t) _
  simp only [h0, h1, h2, h3, h4]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) ((dat3 V c).before 5 t d5) (iblk3 V c 1 t) (iblk3 V c 2 t) (iblk3 V c 3 t) (iblk3 V c 4 t) _)
  iframe
  iintro H; iexact H

end Cert.Kernel.Fr
-- ==== Proof.K.R4Body.lean ====
import proofs.«120946_j80985903333894_1_alg».proof.Proof.K.R4Defs
import proofs.«120946_j80985903333894_1_alg».proof.Proof.FrameLib
import Idealize.ShloMosaic.Lib.Pipeline.TableIdle

noncomputable section

namespace Cert.Kernel.Fr

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

private abbrev own (c : Dev nD) {sp sh e} (m : Memref sig .tc sp sh e) (x : sh.Idx → Elt F e) : sProp 𝕄 :=
  owns (c : Thread nD τ) m fullShare x

abbrev cond4_0 (i : grid4.Coords) : Prop :=
  (Scalar.cmpi .ne (Scalar.extui (Scalar.cmpi .eq (BitVec.ofNat 32 (i 0).val) 0#32)) 0#32) = 1#1
abbrev cond4_1 (i : grid4.Coords) : Prop := k4_cond2 i = 1#1

-- Each point runs exactly one of the three control cases.
private theorem cases4 : ∀ t : Fin cfg4.N,
    (t.val = 0 ∧ cond4_0 (grid4.coords t) ∧ ¬cond4_1 (grid4.coords t) ∧ cfg4.idle 5 (grid4.coords t) = true ∧ (cfg4.win 5).flush t = false)
    ∨ (t.val ≠ 0 ∧ ¬cond4_0 (grid4.coords t) ∧ ¬cond4_1 (grid4.coords t) ∧ cfg4.idle 5 (grid4.coords t) = true ∧ (cfg4.win 5).flush t = false)
    ∨ (t.val ≠ 0 ∧ ¬cond4_0 (grid4.coords t) ∧ cond4_1 (grid4.coords t) ∧ cfg4.idle 5 (grid4.coords t) = false) := by decide +kernel

private theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t)
      ∧ (∀ d, (dat4 V c).before 4 t d = iblk4 V c 4 t) := by
  refine ⟨?_, ?_, ?_, ?_, ?_⟩ <;> intro d <;>
    exact ((dat4 V c).before_in_eq_fetched _ rfl (fun _ => rfl) (fun _ _ _ => rfl)
      (fun t => by simp only [after4_0, after4_1, after4_2, after4_3, after4_4]; unfold Dat.blockOf iblk4; rw [A_eq4]; try rfl) t d).trans
      (by unfold Dat.fetched Dat.blockOf iblk4; rw [A_eq4]; try rfl)

theorem PhiA4_eq (c : Dev nD) :
    (Pipeline.ΦA spec4 c : sProp 𝕄)
      = iprop(iprop((∃ d, own c scM4 d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

theorem PhiS4_zero (c : Dev nD) (n : ℕ) (h : n ≤ cfg4.N) (hz : n = 0) : PhiS4 V c n h = Pipeline.ΦA spec4 c := by
  subst hz; rfl

theorem PhiS4_pos (c : Dev nD) (n : ℕ) (h : n ≤ cfg4.N) (hz : n ≠ 0) :
    PhiS4 V c n h = iprop(own c scM4 (sacc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem sacc4_pos (c : Dev nD) (t : Fin cfg4.N) (hz : t.val ≠ 0) :
    sacc4 V c t.val t.isLt = k4_pay2 (iblk4 V c 0 t) (iblk4 V c 1 t) (sacc4 V c (t.val - 1) (Nat.lt_of_le_of_lt (Nat.sub_le _ _) t.isLt)) := by
  obtain ⟨_ | n, hn⟩ := t
  · exact absurd rfl hz
  · rfl

theorem sacc4_zero (c : Dev nD) (t : Fin cfg4.N) (hz : t.val = 0) :
    sacc4 V c t.val t.isLt = k4_pay2 (iblk4 V c 0 t) (iblk4 V c 1 t) (k4_pay1 (F := F)) := by
  obtain ⟨_ | n, hn⟩ := t
  · rfl
  · exact absurd hz (Nat.succ_ne_zero n)

-- The body's triple on whole buffers, its three control cases at once.
private theorem run4 {c : Dev nD} {E} {i : grid4.Coords} {arg1 : Memref sig .tc .vmem S16x4096 .bf16} {arg2 : Memref sig .tc .vmem S4096x512 .bf16} {arg3 : Memref sig .tc .vmem S1x512 .f32} {arg4 : Memref sig .tc .vmem S512x2 .bf16} {arg5 : Memref sig .tc .vmem S1x2 .f32} {arg6 : Memref sig .tc .vmem S16x2 .f32} {arg7 : Memref sig .tc .vmem S16x512 .f32}
    {harg1 harg2 harg3 harg4 harg5 harg6 harg7 x0 x1 x2 x3 x4 x5 y5 xs ys} {K : PUnit → sProp 𝕄}
    (h : (cond4_0 i ∧ ¬cond4_1 i ∧ y5 = x5 ∧ ys = k4_pay2 x0 x1 (k4_pay1 (F := F)))
      ∨ (¬cond4_0 i ∧ ¬cond4_1 i ∧ y5 = x5 ∧ ys = k4_pay2 x0 x1 xs)
      ∨ (¬cond4_0 i ∧ cond4_1 i ∧ y5 = k4_pay3 (k4_pay2 x0 x1 xs) x2 x3 x4 ∧ ys = k4_pay2 x0 x1 xs)) :
    let I : sProp 𝕄 := iprop(own c arg1 x0 ∗ own c arg2 x1 ∗ own c arg3 x2 ∗ own c arg4 x3 ∗ own c arg5 x4)
    iprop(I ∗ own c arg6 x5 ∗ own c arg7 xs
        ∗ (iprop(I ∗ own c arg6 y5 ∗ own c arg7 ys) -∗ K ⟨⟩))
      ⊢ wp frame (wpE (defs₀ (F := F)) Variants.none c none) E (cc4__fc_head_kernel i arg1 harg1 arg2 harg2 arg3 harg3 arg4 harg4 arg5 harg5 arg6 harg6 arg7 harg7) K := by
  simp only [cc4__fc_head_kernel_eq_skeleton]; unfold cc4__fc_head_kernel_skel
  simp only [own, owns_eq_rep]
  iintro ⟨⟨H0, H1, H2, H3, H4⟩, H5, HS, Hk⟩
  rcases h with ⟨hc0, hc1, rfl, rfl⟩ | ⟨hc0, hc1, rfl, rfl⟩ | ⟨hc0, hc1, rfl, rfl⟩ <;>
  · sl_exec (disch := first | exact hc0 | exact hc1)
    sl_step
    iapply Hk
    iframe
    (try isplitl [H5]) <;>
    · iapply rep_of_owns; unfold owns; iexists _; isplitr
      rotate_left; · iassumption
      ipureintro; sl_unfold_words
      refine (View.read_writes_eq_canon _ _ _ (cover_unit_zero zero2 _ _ _)).trans ?_
      simp only [View.canon_cons_unit_zero (S := S16x512) zero2, View.canon_cons_unit_zero (S := S16x2) zero2, View.readCov_unit_zero (S := S16x512) _ zero2, View.readAt_eq_ld, View.read_rep, View.ld_unit_zero (S := S16x4096) zero2, View.ld_unit_zero (S := S4096x512) zero2, View.ld_unit_zero (S := S16x512) zero2, View.ld_unit_zero (S := S1x512) zero2, View.ld_unit_zero (S := S512x2) zero2, View.ld_unit_zero (S := S1x2) zero2]

theorem sound_body4 (c : Dev nD) (t : Fin cfg4.N) :
    iprop(PhiS4 V c t.val (Nat.le_of_lt t.isLt) ∗ (dat4 V c).owesAt () t.castSucc
      ∗ (∃ d, own c (st4_0 t) ((dat4 V c).before 0 t d)) ∗ (∃ d, own c (st4_1 t) ((dat4 V c).before 1 t d))
      ∗ (∃ d, own c (st4_2 t) ((dat4 V c).before 2 t d)) ∗ (∃ d, own c (st4_3 t) ((dat4 V c).before 3 t d))
      ∗ (∃ d, own c (st4_4 t) ((dat4 V c).before 4 t d)) ∗ (∃ d, own c (st4_5 t) ((dat4 V c).before 5 t d)))
    ⊢ wp frame (wpE (defs₀ (F := F)) Variants.none c none) Set.univ (bodyAt4 t) (fun _ =>
      iprop(PhiS4 V c (t.val + 1) t.isLt ∗ (dat4 V c).owesAt () t.castSucc
        ∗ own c (st4_0 t) (iblk4 V c 0 t) ∗ own c (st4_1 t) (iblk4 V c 1 t) ∗ own c (st4_2 t) (iblk4 V c 2 t)
        ∗ own c (st4_3 t) (iblk4 V c 3 t) ∗ own c (st4_4 t) (iblk4 V c 4 t) ∗ (dat4 V c).leavesExact 5 t)) := by
  obtain ⟨b0, b1, b2, b3, b4⟩ := before4 V c t
  unfold bodyAt4
  simp only [b0, b1, b2, b3, b4]
  rw [PhiS4_pos V c _ _ (Nat.succ_ne_zero _)]
  simp only [Nat.succ_sub_one]
  rcases cases4 t with ⟨hz, hc0, hc1, hi, hf⟩ | ⟨hz, hc0, hc1, hi, hf⟩ | ⟨hz, hc0, hc1, hi⟩
  · rw [Dat.leavesExact_idle (dat4 V c) 5 t hi hf, sacc4_zero V c t hz, PhiS4_zero V c _ _ hz, PhiA4_eq]
    iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩⟩
    iapply (run4 (.inl ⟨hc0, hc1, rfl, rfl⟩))
    iframe
    iintro ⟨⟨H0, H1, H2, H3, H4⟩, H5, HS⟩
    iframe
    iexists d5; iexact H5
  · rw [Dat.leavesExact_idle (dat4 V c) 5 t hi hf, sacc4_pos V c t hz, PhiS4_pos V c _ _ hz]
    iintro ⟨⟨HS, Hr, Hg⟩, Ho, ⟨%d0, H0⟩, ⟨%d1, H1⟩, ⟨%d2, H2⟩, ⟨%d3, H3⟩, ⟨%d4, H4⟩, ⟨%d5, H5⟩⟩
    iapply (run4 (.inr (.inl ⟨hc0, hc1, rfl, rfl⟩)))
    iframe
    iintro ⟨⟨H0, H1, H2, H3, H4⟩, H5, HS⟩
    iframe
    iexists d5; iexact H5
  · unfold Dat.leavesExact
    rw [hi, after4_5]
    unfold out4
    rw [sacc4_pos V c t hz, PhiS4_pos V c _ _ hz]
    iintro ⟨⟨HS, Hr, Hg⟩, Ho, ⟨%d0, H0⟩, ⟨%d1, H1⟩, ⟨%d2, H2⟩, ⟨%d3, H3⟩, ⟨%d4, H4⟩, ⟨%d5, H5⟩⟩
    iapply (run4 (.inr (.inr ⟨hc0, hc1, rfl, rfl⟩)))
    iframe
    iintro ⟨⟨H0, H1, H2, H3, H4⟩, H5, HS⟩
    iframe

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := Entails.refl _

theorem hout4 (c : Dev nD) : (dat4 V c).Φ (Fin.last cfg4.N) ⊢ Pipeline.ΦA spec4 c := by
  rw [show (dat4 V c).Φ (Fin.last cfg4.N) = PhiS4 V c cfg4.N (Nat.le_refl _) from rfl, PhiS4_pos V c _ _ (N_4.trans_ne (by decide)), PhiA4_eq]
  iintro ⟨HS, Hr, Hg⟩
  iframe
  iexists _; iexact HS

end Cert.Kernel.Fr

end
-- ==== Proof.K.Run.lean ====
import proofs.«120946_j80985903333894_1_alg».proof.Proof.K.Fold
import proofs.«120946_j80985903333894_1_alg».proof.Proof.K.R0Body
import proofs.«120946_j80985903333894_1_alg».proof.Proof.K.R1Body
import proofs.«120946_j80985903333894_1_alg».proof.Proof.K.R2Body
import proofs.«120946_j80985903333894_1_alg».proof.Proof.K.R3Body
import proofs.«120946_j80985903333894_1_alg».proof.Proof.K.R4Body

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 5) → (c : Dev nD) → Pipeline.Dat τ (Elt F) Unit ℕ (UR sig nD τ) ℕ (cfgs p) c
  | ⟨0, _⟩ => dat0 (E1 m)
  | ⟨1, _⟩ => dat1 (E3 m)
  | ⟨2, _⟩ => dat2 (E5 m)
  | ⟨3, _⟩ => dat3 (E7 m)
  | ⟨4, _⟩ => dat4 (E13 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The segment of region `p`, from contents `W` to contents `W'`; what holds by `rfl` at a numeral `p` is a hypothesis here. -/
private def reg {p : Fin 5} (l : Pipeline.LaunchFacts (nD := nD) (τ := τ) cfgs p) (W W' : Dev nD → Valuation τ sig (Elt F))
    (hb : ∀ c, Pipeline.BodyObligation (pdats m p c) defs₀ 𝒱₀ () Set.univ)
    (hF : ∀ c w, (pdats m p c).arrAt w (cfgs p).N = W' c (Proc.devRef .tc (Pipeline.arrRef (cfgs p).spec w)))
    (hr : ∀ c, ∀ b ∉ Finset.image (Pipeline.arrRef (cfgs p).spec) Finset.univ, W' c (Proc.devRef .tc b) = W c (Proc.devRef .tc b))
    (hi : ∀ c, Pipeline.ΦA (cfgs p).spec c ⊢ (pdats m p c).Φ 0 := by exact fun _ => .rfl)
    (ho : ∀ c, (pdats m p c).Φ (Fin.last _) ⊢ Pipeline.ΦA (cfgs p).spec c := by exact fun _ => .rfl)
    (h0 : ∀ c t, (pdats m p c).owed t = 0 := by exact fun _ _ => rfl)
    (hq : ∀ c w, (pdats m p c).share w = fullShare := by exact fun _ => Pipeline.Dat.share_full _ fun _ => rfl)
    (hA : ∀ c w, (pdats m p c).A w = W c (Proc.devRef .tc (Pipeline.arrRef (cfgs p).spec w)) := by exact fun _ _ => rfl)
    (hB : ∀ c (V : Finset (SemLoc sig × Unit)), ↑V ⊆ (pdats m p c).bound () 0 := by exact fun _ _ _ _ => .inl trivial) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p h0
  pre := T W
  post := T W'
  X c := iprop(∃ r, prngReg c r)
  Y c := iprop(∃ r, prngReg c r)
  Z c := Pipeline.unscopedRest (cfgs p).spec c fun b => W c (Proc.devRef .tc b)
  hentry c := by
    have h := Pipeline.arrays_of_unscopedBufs (pcfgs (F := F)) adm (pdats m) l.win l.arr_whole c (hq c) (fun b => W c (Proc.devRef .tc b)) (hA c)
    rw [Pipeline.unscopedBufs_held] at h
    unfold Pipeline.prefHeld Pipeline.Dat.owesAt Pipeline.owesWithin
    rw [h0, Finset.univ_eq_empty, BI.bigSep_empty]
    iintro ⟨⟨Hub, Hp, %V, HO⟩, -⟩
    ihave ⟨Ha, Hz⟩ := h $$ Hub
    imodintro
    iframe
    isplitr; · iempintro
    iexists V
    iframe
    ipureintro; exact hB c V
  hin c := by
    refine .trans ?_ (hi c); unfold Pipeline.ΦA
    iintro ⟨Hp, -, Hr⟩
    iframe
  hout c := by
    refine (ho c).trans ?_; rw [Pipeline.ownSems0_none]; unfold Pipeline.ΦA
    iintro ⟨Hr, Hp⟩
    iframe
    iempintro
  hexit c := by
    have h := Pipeline.unscopedBufs_of_arrays (pcfgs (F := F)) adm l.win l.arr_whole c (pdats m) (hq c)
      (fun b => W c (Proc.devRef .tc b)) (fun b => W' c (Proc.devRef .tc b)) _ (hF c) (hr c)
    rw [Pipeline.unscopedBufs_held] at h
    unfold Pipeline.Dat.owesAt Pipeline.owesWithin
    rw [h0]
    iintro ⟨Ha, ⟨%V, -, HO⟩, HY, Hz⟩
    imodintro
    isplitl [Ha Hz]
    · iapply h; iframe
    isplitl [HY]; · iexact HY
    iexists V; iexact HO

def reg0 := reg m launch0 (W1 m) (W2 m) (body_obligation0 (E1 m)) (hF0 m) (hrest0 m)
def reg1 := reg m launch1 (W3 m) (W4 m) (body_obligation1 (E3 m)) (hF1 m) (hrest1 m)
def reg2 := reg m launch2 (W5 m) (W6 m) (body_obligation2 (E5 m)) (hF2 m) (hrest2 m)
def reg3 := reg m launch3 (W7 m) (W8 m) (body_obligation3 (E7 m)) (hF3 m) (hrest3 m)
def reg4 := reg m launch4 (W13 m) (W14 m) (body_obligation4 (E13 m)) (hF4 m) (hrest4 m) (hin4 (E13 m)) (hout4 (E13 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .host (hseg hostOps4_3 hostOps4_3_sub hostOps4_3_fresh (W11 m)),
    .host (hseg hostOps4_4 hostOps4_4_sub hostOps4_4_fresh (W12 m)),
    .region (reg4 m) ]

theorem main_run (c : Dev nD) : main (F := F) c = Pipeline.Seg.run (segs m) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := Rounds.initOf (Pipeline.cells cfgs cellOf_inj) (Pipeline.launchToks cfgs cellOf_inj))
    (hu₀ := by rw [BI.bigSep_emp_const]; exact sep_emp.2.trans fupd_intro)
    (T₀ := T (W0 m))
    (Tₙ := fun c => iprop(StableHlo.held (c : Thread nD τ) (Pipeline.ucRefs τ sig) (W14 m c) ∗ ∃ r, prngReg c r))
    (hch := by iterate 14 refine ⟨fun _ => .rfl, ?_⟩
               exact fun _ => sep_assoc.2)
    (hinit := Pipeline.initEach L lv fun c => by
      unfold T; rw [← Pipeline.unscopedBufs_held]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply pointsTo_read_all _ (fun b => ((c : Thread nD τ).1, b)) (W14 m c) s'
      iframe)
    (hQ := fun _ h => h)

end Cert.Kernel.Fr

end
-- ==== Proof.KI.R0Defs.lean ====
import proofs.«120946_j80985903333894_1_alg».proof.Proof.Gen.KernelIdeal.Launch
import proofs.«120946_j80985903333894_1_alg».proof.Proof.Gen.KernelIdeal.Skeleton
import proofs.«120946_j80985903333894_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Fr

open Cert.KernelIdeal Cert.KernelIdeal.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the affine map computed at point `t`. -/
def y0 (c : Dev nD) (t : Fin cfg0.N) : Vec F S8192x32 .f32 :=
  k0_pay3 (iblk0 V c 0 t) (iblk0 V c 1 t) (iblk0 V c 2 t)

/-- The running column sums and column sums of squares after point `n`: each point adds those of its rows to the point before's, from zero. -/
def acc0 (c : Dev nD) : (n : ℕ) → n < cfg0.N → Vec F S1x32 .f32 × Vec F S1x32 .f32
  | 0, hn => (k0_pay4 (iblk0 V c 0 ⟨0, hn⟩) (iblk0 V c 1 ⟨0, hn⟩) (iblk0 V c 2 ⟨0, hn⟩) (k0_pay1 (F := F)),
              k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
              k0_pay5 (iblk0 V c 0 ⟨n + 1, hn⟩) (iblk0 V c 1 ⟨n + 1, hn⟩) (iblk0 V c 2 ⟨n + 1, hn⟩) (acc0 c n (Nat.lt_of_succ_lt hn)).2)

/-- The region's proof data: the values after point `t` are the inputs' blocks, the point's rows and the running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => y0 V c t
    | ⟨4, _⟩ => (acc0 V c t.val t.isLt).1
    | ⟨5, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = y0 V c t := rfl
theorem after0_4 (c : Dev nD) (t : Fin cfg0.N) : (dat0 V c).after 4 t = (acc0 V c t.val t.isLt).1 := rfl
theorem after0_5 (c : Dev nD) (t : Fin cfg0.N) : (dat0 V c).after 5 t = (acc0 V c t.val t.isLt).2 := rfl

end Cert.KernelIdeal.Fr

end
-- ==== Proof.KI.R1Defs.lean ====
import proofs.«120946_j80985903333894_1_alg».proof.Proof.Gen.KernelIdeal.Launch
import proofs.«120946_j80985903333894_1_alg».proof.Proof.Gen.KernelIdeal.Skeleton
import proofs.«120946_j80985903333894_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Fr

open Cert.KernelIdeal Cert.KernelIdeal.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalized, scaled, shifted and clamped rows of point `t`: pointwise in the point's rows and the mean, variance, scale and shift rows. -/
def out1 (c : Dev nD) (t : Fin cfg1.N) : Vec F S8192x32 .f32 :=
  k1_pay1 (iblk1 V c 0 t) (iblk1 V c 2 t) (iblk1 V c 3 t) (iblk1 V c 1 t) (iblk1 V c 4 t)

/-- The region's proof data: the values after point `t` are the inputs' blocks and the point's rows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = out1 V c t := rfl

end Cert.KernelIdeal.Fr

end
-- ==== Proof.KI.R2Defs.lean ====
import proofs.«120946_j80985903333894_1_alg».proof.Proof.Gen.KernelIdeal.Launch
import proofs.«120946_j80985903333894_1_alg».proof.Proof.Gen.KernelIdeal.Skeleton
import proofs.«120946_j80985903333894_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Fr

open Cert.KernelIdeal Cert.KernelIdeal.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of the affine map computed at point `t`. -/
def y2 (c : Dev nD) (t : Fin cfg2.N) : Vec F S8192x32 .f32 :=
  k2_pay3 (iblk2 V c 0 t) (iblk2 V c 1 t) (iblk2 V c 2 t)

/-- The running column sums and column sums of squares after point `n`: each point adds those of its rows to the point before's, from zero. -/
def acc2 (c : Dev nD) : (n : ℕ) → n < cfg2.N → Vec F S1x32 .f32 × Vec F S1x32 .f32
  | 0, hn => (k2_pay4 (iblk2 V c 0 ⟨0, hn⟩) (iblk2 V c 1 ⟨0, hn⟩) (iblk2 V c 2 ⟨0, hn⟩) (k2_pay1 (F := F)),
              k2_pay5 (iblk2 V c 0 ⟨0, hn⟩) (iblk2 V c 1 ⟨0, hn⟩) (iblk2 V c 2 ⟨0, hn⟩) (k2_pay2 (F := F)))
  | n + 1, hn => (k2_pay4 (iblk2 V c 0 ⟨n + 1, hn⟩) (iblk2 V c 1 ⟨n + 1, hn⟩) (iblk2 V c 2 ⟨n + 1, hn⟩) (acc2 c n (Nat.lt_of_succ_lt hn)).1,
              k2_pay5 (iblk2 V c 0 ⟨n + 1, hn⟩) (iblk2 V c 1 ⟨n + 1, hn⟩) (iblk2 V c 2 ⟨n + 1, hn⟩) (acc2 c n (Nat.lt_of_succ_lt hn)).2)

/-- The region's proof data: the values after point `t` are the inputs' blocks, the point's rows and the running sums. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => y2 V c t
    | ⟨4, _⟩ => (acc2 V c t.val t.isLt).1
    | ⟨5, _⟩ => (acc2 V c t.val t.isLt).2
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = y2 V c t := rfl
theorem after2_4 (c : Dev nD) (t : Fin cfg2.N) : (dat2 V c).after 4 t = (acc2 V c t.val t.isLt).1 := rfl
theorem after2_5 (c : Dev nD) (t : Fin cfg2.N) : (dat2 V c).after 5 t = (acc2 V c t.val t.isLt).2 := rfl

end Cert.KernelIdeal.Fr

end
-- ==== Proof.KI.R3Defs.lean ====
import proofs.«120946_j80985903333894_1_alg».proof.Proof.Gen.KernelIdeal.Launch
import proofs.«120946_j80985903333894_1_alg».proof.Proof.Gen.KernelIdeal.Skeleton
import proofs.«120946_j80985903333894_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Fr

open Cert.KernelIdeal Cert.KernelIdeal.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

/-- Window `w`'s block at point `t`, read off its array at region entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The normalized, scaled, shifted and clamped rows of point `t`: pointwise in the point's rows and the mean, variance, scale and shift rows. -/
def out3 (c : Dev nD) (t : Fin cfg3.N) : Vec F S8192x32 .f32 :=
  k3_pay1 (iblk3 V c 0 t) (iblk3 V c 2 t) (iblk3 V c 3 t) (iblk3 V c 1 t) (iblk3 V c 4 t)

/-- The region's proof data: the values after point `t` are the inputs' blocks and the point's rows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t = out3 V c t := rfl

end Cert.KernelIdeal.Fr

end
-- ==== Proof.KI.R4Defs.lean ====
import proofs.«120946_j80985903333894_1_alg».proof.Proof.Gen.KernelIdeal.Launch
import proofs.«120946_j80985903333894_1_alg».proof.Proof.Gen.KernelIdeal.Skeleton
import proofs.«120946_j80985903333894_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem Idealize.ShloMosaic.Rounds
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at region entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S16x512 .f32 := Memref.whole cc4_scratch0

/-- The accumulated first product after point `n`: each point adds the product of its blocks to the point before's, from zero. -/
def sacc4 (c : Dev nD) : (n : ℕ) → n < cfg4.N → Vec F S16x512 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (sacc4 c n (Nat.lt_of_succ_lt hn))

/-- The second layer applied to the accumulated first product: what the last point stores. -/
def out4 (c : Dev nD) (t : Fin cfg4.N) : Vec F S16x2 .f32 :=
  k4_pay3 (sacc4 V c t.val t.isLt) (iblk4 V c 2 t) (iblk4 V c 3 t) (iblk4 V c 4 t)

/-- The region's invariant before position `n`: from the second point on it carries the accumulated product up to the point before. -/
def PhiS4 (c : Dev nD) : (n : ℕ) → n ≤ cfg4.N → sProp 𝕄
  | 0, _ => Pipeline.ΦA spec4 c
  | n + 1, hn => iprop(owns (c : Thread nD τ) scM4 fullShare (sacc4 V c n hn)
      ∗ Pipeline.scopedRestBut (Ix := Unit) (Name := ℕ) (U := UR sig nD τ) (Lvl := ℕ) (Val := Elt F) spec4 c [cc4_scratch0]
      ∗ (∃ r, prngReg c r))

/-- The region's proof data. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = iblk4 V c 3 t := rfl
theorem after4_4 (c : Dev nD) (t : Fin cfg4.N) : (dat4 V c).after 4 t = iblk4 V c 4 t := rfl
theorem after4_5 (c : Dev nD) (t : Fin cfg4.N) : (dat4 V c).after 5 t = out4 V c t := rfl

end Cert.KernelIdeal.Fr

end
-- ==== Proof.KI.Fold.lean ====
import proofs.«120946_j80985903333894_1_alg».proof.Proof.KI.R0Defs
import proofs.«120946_j80985903333894_1_alg».proof.Proof.KI.R1Defs
import proofs.«120946_j80985903333894_1_alg».proof.Proof.KI.R2Defs
import proofs.«120946_j80985903333894_1_alg».proof.Proof.KI.R3Defs
import proofs.«120946_j80985903333894_1_alg».proof.Proof.KI.R4Defs
import proofs.«120946_j80985903333894_1_alg».proof.Proof.Gen.KernelIdeal.Regions

noncomputable section

namespace Cert.KernelIdeal.Fr

open Cert.KernelIdeal Cert.KernelIdeal.Gen Idealize.ShloMosaic TcCoe Pipeline StableHlo

variable {F : FTy → Type} [FloatOps F] (m : (ℓ : Loc nD τ sig) → Buf (Elt F) ℓ) (c : Dev nD)

abbrev W0 : Valuation τ sig (Elt F) := fun b => m (c, b)
abbrev W1 := after hostOps0 (W0 m c)
abbrev E1 : (c : Dev nD) → (b : Ref sig .tc) → Buf (Elt F) ((c : Thread nD τ).loc b) := fun c b => W1 m c b
def W2 := withArrays spec0 c (W1 m c) fun w => (dat0 (E1 m) c).arrAt w cfg0.N
abbrev W3 := after hostOps1 (W2 m c)
abbrev E3 : (c : Dev nD) → (b : Ref sig .tc) → Buf (Elt F) ((c : Thread nD τ).loc b) := fun c b => W3 m c b
def W4 := withArrays spec1 c (W3 m c) fun w => (dat1 (E3 m) c).arrAt w cfg1.N
abbrev W5 := after hostOps2 (W4 m c)
abbrev E5 : (c : Dev nD) → (b : Ref sig .tc) → Buf (Elt F) ((c : Thread nD τ).loc b) := fun c b => W5 m c b
def W6 := withArrays spec2 c (W5 m c) fun w => (dat2 (E5 m) c).arrAt w cfg2.N
abbrev W7 := after hostOps3 (W6 m c)
abbrev E7 : (c : Dev nD) → (b : Ref sig .tc) → Buf (Elt F) ((c : Thread nD τ).loc b) := fun c b => W7 m c b
def W8 := withArrays spec3 c (W7 m c) fun w => (dat3 (E7 m) c).arrAt w cfg3.N
abbrev W9 := after hostOps4 (W8 m c)
abbrev W10 := after hostOps4_1 (W9 m c)
abbrev W11 := after hostOps4_2 (W10 m c)
abbrev W12 := after hostOps4_3 (W11 m c)
abbrev W13 := after hostOps4_4 (W12 m c)
abbrev E13 : (c : Dev nD) → (b : Ref sig .tc) → Buf (Elt F) ((c : Thread nD τ).loc b) := fun c b => W13 m c b
def W14 := withArrays spec4 c (W13 m c) fun w => (dat4 (E13 m) c).arrAt w cfg4.N

/-- A reference outside the image of a region's arrays is left as it was. -/
private theorem rest {gr W : ℕ} {win : Fin W → WinSpec sig gr} {V : Valuation τ sig (Elt F)} {A} (b : Ref sig .tc)
    (hb : b ∉ Finset.univ.image (arrRef win)) : withArrays win c V A b = V b :=
  withArrays_of_ne win c V A b fun w e => hb (Finset.mem_image.mpr ⟨w, Finset.mem_univ _, e⟩)

theorem W2_arr (w : Fin cfg0.W) :
    W2 m c (arrRef spec0 w) = (dat0 (E1 m) c).arrAt w cfg0.N :=
  withArrays_arr spec0 launch0.win.arr_inj c _ _ w
theorem W2_of_ne (b : Ref sig .tc) (hb : ∀ w, arrRef spec0 w ≠ b) :
    W2 m c b = W1 m c b :=
  withArrays_of_ne spec0 c _ _ b hb
abbrev XW2 : (c : Dev nD) → (b : Ref sig .tc) → Buf (Elt F) ((c : Thread nD τ).loc b) := fun c b => W2 m c b
theorem hF0 (w : Fin cfg0.W) : (dat0 (E1 m) c).arrAt w cfg0.N = XW2 m c (arrRef spec0 w) :=
  (W2_arr m c w).symm
theorem hrest0 : ∀ b, b ∉ Finset.univ.image (arrRef spec0) → XW2 m c b = E1 m c b :=
  rest c

theorem W4_arr (w : Fin cfg1.W) :
    W4 m c (arrRef spec1 w) = (dat1 (E3 m) c).arrAt w cfg1.N :=
  withArrays_arr spec1 launch1.win.arr_inj c _ _ w
theorem W4_of_ne (b : Ref sig .tc) (hb : ∀ w, arrRef spec1 w ≠ b) :
    W4 m c b = W3 m c b :=
  withArrays_of_ne spec1 c _ _ b hb
abbrev XW4 : (c : Dev nD) → (b : Ref sig .tc) → Buf (Elt F) ((c : Thread nD τ).loc b) := fun c b => W4 m c b
theorem hF1 (w : Fin cfg1.W) : (dat1 (E3 m) c).arrAt w cfg1.N = XW4 m c (arrRef spec1 w) :=
  (W4_arr m c w).symm
theorem hrest1 : ∀ b, b ∉ Finset.univ.image (arrRef spec1) → XW4 m c b = E3 m c b :=
  rest c

theorem W6_arr (w : Fin cfg2.W) :
    W6 m c (arrRef spec2 w) = (dat2 (E5 m) c).arrAt w cfg2.N :=
  withArrays_arr spec2 launch2.win.arr_inj c _ _ w
theorem W6_of_ne (b : Ref sig .tc) (hb : ∀ w, arrRef spec2 w ≠ b) :
    W6 m c b = W5 m c b :=
  withArrays_of_ne spec2 c _ _ b hb
abbrev XW6 : (c : Dev nD) → (b : Ref sig .tc) → Buf (Elt F) ((c : Thread nD τ).loc b) := fun c b => W6 m c b
theorem hF2 (w : Fin cfg2.W) : (dat2 (E5 m) c).arrAt w cfg2.N = XW6 m c (arrRef spec2 w) :=
  (W6_arr m c w).symm
theorem hrest2 : ∀ b, b ∉ Finset.univ.image (arrRef spec2) → XW6 m c b = E5 m c b :=
  rest c

theorem W8_arr (w : Fin cfg3.W) :
    W8 m c (arrRef spec3 w) = (dat3 (E7 m) c).arrAt w cfg3.N :=
  withArrays_arr spec3 launch3.win.arr_inj c _ _ w
theorem W8_of_ne (b : Ref sig .tc) (hb : ∀ w, arrRef spec3 w ≠ b) :
    W8 m c b = W7 m c b :=
  withArrays_of_ne spec3 c _ _ b hb
abbrev XW8 : (c : Dev nD) → (b : Ref sig .tc) → Buf (Elt F) ((c : Thread nD τ).loc b) := fun c b => W8 m c b
theorem hF3 (w : Fin cfg3.W) : (dat3 (E7 m) c).arrAt w cfg3.N = XW8 m c (arrRef spec3 w) :=
  (W8_arr m c w).symm
theorem hrest3 : ∀ b, b ∉ Finset.univ.image (arrRef spec3) → XW8 m c b = E7 m c b :=
  rest c

theorem W14_arr (w : Fin cfg4.W) :
    W14 m c (arrRef spec4 w) = (dat4 (E13 m) c).arrAt w cfg4.N :=
  withArrays_arr spec4 launch4.win.arr_inj c _ _ w
theorem W14_of_ne (b : Ref sig .tc) (hb : ∀ w, arrRef spec4 w ≠ b) :
    W14 m c b = W13 m c b :=
  withArrays_of_ne spec4 c _ _ b hb
abbrev XW14 : (c : Dev nD) → (b : Ref sig .tc) → Buf (Elt F) ((c : Thread nD τ).loc b) := fun c b => W14 m c b
theorem hF4 (w : Fin cfg4.W) : (dat4 (E13 m) c).arrAt w cfg4.N = XW14 m c (arrRef spec4 w) :=
  (W14_arr m c w).symm
theorem hrest4 : ∀ b, b ∉ Finset.univ.image (arrRef spec4) → XW14 m c b = E13 m c b :=
  rest c

end Cert.KernelIdeal.Fr

end
-- ==== Proof.KI.R0Body.lean ====
import proofs.«120946_j80985903333894_1_alg».proof.Proof.KI.R0Defs
import proofs.«120946_j80985903333894_1_alg».proof.Proof.FrameLib

namespace Cert.KernelIdeal.Fr

open Cert.KernelIdeal Cert.KernelIdeal.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val % 16 = 0 :=
  (by decide +kernel : ∀ t : Fin grid0.N, cond0 (grid0.coords t) ↔ t.val % 16 = 0)

-- One run of the body: the two sums start again from their zero rows exactly when the condition holds.
private theorem kernel0_run (c : Dev nD) (E : Set ℕ) (i : grid0.Coords) (arg1 : Memref sig .tc .vmem S8192x64 .f32)
    (arg2 : Memref sig .tc .vmem S64x32 .bf16) (arg4 : Memref sig .tc .vmem S8192x32 .f32) (arg3 arg5 arg6 : Memref sig .tc .vmem S1x32 .f32)
    (harg1 : arg1.IsWhole) (harg2 : arg2.IsWhole) (harg3 : arg3.IsWhole) (harg4 : arg4.IsWhole) (harg5 : arg5.IsWhole) (harg6 : arg6.IsWhole)
    (x1 : Vec F S8192x64 .f32) (x2 : Vec F S64x32 .bf16) (x3 a4 a5 b4 b5 : Vec F S1x32 .f32) (d : Vec F S8192x32 .f32)
    (hb : cond0 i ∧ b4 = k0_pay1 ∧ b5 = k0_pay2 ∨ ¬cond0 i ∧ b4 = a4 ∧ b5 = a5) (K : PUnit → sProp (MT nD τ sig Unit (Elt F) ℕ (UR sig nD τ) ℕ)) :
    iprop(owns c.tc arg1 fullShare x1 ∗ owns c.tc arg2 fullShare x2 ∗ owns c.tc arg3 fullShare x3
        ∗ owns c.tc arg4 fullShare d ∗ owns c.tc arg5 fullShare a4 ∗ owns c.tc arg6 fullShare a5
        ∗ (iprop(owns c.tc arg1 fullShare x1 ∗ owns c.tc arg2 fullShare x2 ∗ owns c.tc arg3 fullShare x3
            ∗ owns c.tc arg4 fullShare (k0_pay3 x1 x2 x3) ∗ owns c.tc arg5 fullShare (k0_pay4 x1 x2 x3 b4)
            ∗ owns c.tc arg6 fullShare (k0_pay5 x1 x2 x3 b5)) -∗ K ⟨⟩))
      ⊢ wp frame (wpE (defs₀ (F := F)) Variants.none c none) E (cc0__linear_stats_kernel i arg1 harg1 arg2 harg2 arg3 harg3 arg4 harg4 arg5 harg5 arg6 harg6) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%f4, -, H4⟩, ⟨%f5, %hf5, H5⟩, ⟨%f6, %hf6, H6⟩, Hk⟩
  subst hf1 hf2 hf3 hf5 hf6
  obtain ⟨hc, rfl, rfl⟩ | ⟨hc, rfl, rfl⟩ := hb <;>
  · sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4] <;> [skip; isplitl [H5]] <;>
    · iexists _; isplitr
      swap; · first | iexact H4 | iexact H5 | iexact H6
      ipureintro
      try sl_unfold_words
      refine (View.read_writes_eq_canon _ _ _ (cover_unit_zero zero2 _ _ _)).trans ?_
      first
        | rw [View.canon_unit_zero zero2]
        | rw [View.canon_cons_unit_zero (S := S1x32) zero2, View.readCov_unit_zero (S := S1x32) _ zero2]
      simp only [View.readAt_eq_ld, View.ld_unit_zero (S := S8192x64) zero2, View.ld_unit_zero (S := S64x32) zero2,
        View.ld_unit_zero (S := S1x32) zero2]

private theorem before0_in (c : Dev nD) (t : Fin cfg0.N) :
    (∀ d, (dat0 V c).before 0 t d = iblk0 V c 0 t) ∧ (∀ d, (dat0 V c).before 1 t d = iblk0 V c 1 t) ∧
    ∀ d, (dat0 V c).before 2 t d = iblk0 V c 2 t := by
  refine ⟨?_, ?_, ?_⟩ <;> exact fun d =>
    ((dat0 V c).before_in_eq_fetched _ rfl (fun _ => rfl) (fun _ _ _ => rfl)
      (fun t => by unfold Dat.blockOf; rw [A_eq0]; rfl) t d).trans
    (by unfold Dat.fetched Dat.blockOf iblk0; rw [A_eq0]; try rfl)

-- The running sums at a point continue those of the point before; at the first point they start from the zero rows.
private theorem acc0_step (c : Dev nD) (t : Fin cfg0.N) (d4 d5) :
    ∃ b4 b5, (cond0 (grid0.coords t) ∧ b4 = k0_pay1 ∧ b5 = k0_pay2 ∨
        ¬cond0 (grid0.coords t) ∧ b4 = (dat0 V c).before 4 t d4 ∧ b5 = (dat0 V c).before 5 t d5) ∧
      acc0 V c t.val t.isLt = (k0_pay4 (iblk0 V c 0 t) (iblk0 V c 1 t) (iblk0 V c 2 t) b4,
        k0_pay5 (iblk0 V c 0 t) (iblk0 V c 1 t) (iblk0 V c 2 t) b5) := by
  obtain ⟨_ | n, hn⟩ := t
  · exact ⟨_, _, .inl ⟨(hcond0 _).mpr rfl, rfl, rfl⟩, rfl⟩
  · have hN : n + 1 < 16 := lt_of_lt_of_eq hn N_0
    refine ⟨_, _, .inr ⟨mt (hcond0 _).mp (by dsimp only; omega), rfl, rfl⟩, ?_⟩
    rw [Dat.before_out_kept _ 4 rfl ⟨n + 1, hn⟩ n.succ_ne_zero
        (Bool.eq_false_iff.mpr fun h => by have := (flush0_4 _).mp h; dsimp only at this; omega) (fun _ => rfl) (fun _ _ => rfl),
      Dat.before_out_kept _ 5 rfl ⟨n + 1, hn⟩ n.succ_ne_zero
        (Bool.eq_false_iff.mpr fun h => by have := (flush0_5 _).mp h; dsimp only at this; omega) (fun _ => rfl) (fun _ _ => rfl),
      after0_4, after0_5]
    rfl

theorem body_obligation0 (c : Dev nD) : BodyObligation (dat0 (F := F) V c) (defs₀ (F := F)) Variants.none () Set.univ := fun t => by
  obtain ⟨h0, h1, h2⟩ := before0_in V c t
  rw [bigSep_W0, bigSep_W0]
  show _ ⊢ wp _ _ _ (bodyAt0 t) _
  simp only [h0, h1, h2, after0_4, after0_5]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  obtain ⟨b4, b5, hb, ha⟩ := acc0_step V c t d4 d5
  simp only [ha]
  iapply (kernel0_run c Set.univ (grid0.coords t) _ _ _ _ _ _ _ _ _ _ _ _
    (iblk0 V c 0 t) (iblk0 V c 1 t) (iblk0 V c 2 t) ((dat0 V c).before 4 t d4) ((dat0 V c).before 5 t d5) b4 b5
    ((dat0 V c).before 3 t d3) hb _)
  iframe
  iintro H; iexact H

end Cert.KernelIdeal.Fr
-- ==== Proof.KI.R1Body.lean ====
import proofs.«120946_j80985903333894_1_alg».proof.Proof.KI.R1Defs
import proofs.«120946_j80985903333894_1_alg».proof.Proof.FrameLib

namespace Cert.KernelIdeal.Fr

open Cert.KernelIdeal Cert.KernelIdeal.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

private theorem found1 (c : Dev nD) (t : Fin cfg1.N) :
    (∀ d, (dat1 V c).before 0 t d = iblk1 V c 0 t) ∧ (∀ d, (dat1 V c).before 1 t d = iblk1 V c 1 t) ∧
    (∀ d, (dat1 V c).before 2 t d = iblk1 V c 2 t) ∧ (∀ d, (dat1 V c).before 3 t d = iblk1 V c 3 t) ∧
    ∀ d, (dat1 V c).before 4 t d = iblk1 V c 4 t := by
  refine ⟨?_, ?_, ?_, ?_, ?_⟩ <;> exact fun d =>
    ((dat1 V c).before_in_eq_fetched _ rfl (fun _ => rfl) (fun _ _ _ => rfl)
      (fun t => by unfold Dat.blockOf; rw [A_eq1]; rfl) t d).trans
    (by unfold Dat.fetched Dat.blockOf iblk1; rw [A_eq1]; try rfl)

private theorem sound_kernel1 (c : Dev nD) (E : Set ℕ) (i : grid1.Coords)
    (ay ao : Memref sig .tc .vmem S8192x32 .f32) (am av ag ab : Memref sig .tc .vmem S1x32 .f32)
    (hy : ay.IsWhole) (hm : am.IsWhole) (hv : av.IsWhole) (hg : ag.IsWhole) (hb : ab.IsWhole) (ho : ao.IsWhole)
    (y d : Vec F S8192x32 .f32) (mu var g be : Vec F S1x32 .f32) (K : PUnit → sProp (MT nD τ sig Unit (Elt F) ℕ (UR sig nD τ) ℕ)) :
    iprop(owns c.tc ay fullShare y ∗ owns c.tc am fullShare mu ∗ owns c.tc av fullShare var ∗ owns c.tc ag fullShare g
        ∗ owns c.tc ab fullShare be ∗ owns c.tc ao fullShare d
        ∗ (iprop(owns c.tc ay fullShare y ∗ owns c.tc am fullShare mu ∗ owns c.tc av fullShare var ∗ owns c.tc ag fullShare g
              ∗ owns c.tc ab fullShare be ∗ owns c.tc ao fullShare (k1_pay1 y var g mu be)) -∗ K ⟨⟩))
      ⊢ wp frame (wpE (defs₀ (F := F)) Variants.none c none) E
          (cc1__normalize_relu_kernel i ay hy am hm av hv ag hg ab hb ao ho) K := by
  simp only [cc1__normalize_relu_kernel_eq_skeleton]; unfold cc1__normalize_relu_kernel_skel
  unfold owns
  iintro ⟨⟨%f0, %e0, H0⟩, ⟨%f1, %e1, H1⟩, ⟨%f2, %e2, H2⟩, ⟨%f3, %e3, H3⟩, ⟨%f4, %e4, H4⟩, ⟨%f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_unit_zero zero2 _ _ _), View.canon_unit_zero (S := S8192x32) zero2]
  simp only [View.readAt_eq_ld, View.ld_unit_zero (S := S8192x32) zero2, View.ld_unit_zero (S := S1x32) zero2]

theorem body_obligation1 (c : Dev nD) : BodyObligation (dat1 (F := F) V c) (defs₀ (F := F)) Variants.none () Set.univ := fun t => by
  obtain ⟨h0, h1, h2, h3, h4⟩ := found1 V c t
  rw [bigSep_W1, bigSep_W1]
  show _ ⊢ wp _ _ _ (bodyAt1 t) _
  simp only [h0, h1, h2, h3, h4]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) ((dat1 V c).before 5 t d5) (iblk1 V c 1 t) (iblk1 V c 2 t) (iblk1 V c 3 t) (iblk1 V c 4 t) _)
  iframe
  iintro H; iexact H

end Cert.KernelIdeal.Fr
-- ==== Proof.KI.R2Body.lean ====
import proofs.«120946_j80985903333894_1_alg».proof.Proof.KI.R2Defs
import proofs.«120946_j80985903333894_1_alg».proof.Proof.FrameLib

namespace Cert.KernelIdeal.Fr

open Cert.KernelIdeal Cert.KernelIdeal.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

abbrev cond2 (i : grid2.Coords) : Prop :=
  (Scalar.cmpi .ne (Scalar.extui (Scalar.cmpi .eq (BitVec.ofNat 32 (i 0).val) 0#32)) 0#32) = 1#1

theorem hcond2 : ∀ t : Fin cfg2.N, cond2 (grid2.coords t) ↔ t.val % 16 = 0 :=
  (by decide +kernel : ∀ t : Fin grid2.N, cond2 (grid2.coords t) ↔ t.val % 16 = 0)

-- One run of the body: the two sums start again from their zero rows exactly when the condition holds.
private theorem kernel2_run (c : Dev nD) (E : Set ℕ) (i : grid2.Coords) (arg1 : Memref sig .tc .vmem S8192x32 .f32)
    (arg2 : Memref sig .tc .vmem S32x32 .bf16) (arg4 : Memref sig .tc .vmem S8192x32 .f32) (arg3 arg5 arg6 : Memref sig .tc .vmem S1x32 .f32)
    (harg1 : arg1.IsWhole) (harg2 : arg2.IsWhole) (harg3 : arg3.IsWhole) (harg4 : arg4.IsWhole) (harg5 : arg5.IsWhole) (harg6 : arg6.IsWhole)
    (x1 : Vec F S8192x32 .f32) (x2 : Vec F S32x32 .bf16) (x3 a4 a5 b4 b5 : Vec F S1x32 .f32) (d : Vec F S8192x32 .f32)
    (hb : cond2 i ∧ b4 = k2_pay1 ∧ b5 = k2_pay2 ∨ ¬cond2 i ∧ b4 = a4 ∧ b5 = a5) (K : PUnit → sProp (MT nD τ sig Unit (Elt F) ℕ (UR sig nD τ) ℕ)) :
    iprop(owns c.tc arg1 fullShare x1 ∗ owns c.tc arg2 fullShare x2 ∗ owns c.tc arg3 fullShare x3
        ∗ owns c.tc arg4 fullShare d ∗ owns c.tc arg5 fullShare a4 ∗ owns c.tc arg6 fullShare a5
        ∗ (iprop(owns c.tc arg1 fullShare x1 ∗ owns c.tc arg2 fullShare x2 ∗ owns c.tc arg3 fullShare x3
            ∗ owns c.tc arg4 fullShare (k2_pay3 x1 x2 x3) ∗ owns c.tc arg5 fullShare (k2_pay4 x1 x2 x3 b4)
            ∗ owns c.tc arg6 fullShare (k2_pay5 x1 x2 x3 b5)) -∗ K ⟨⟩))
      ⊢ wp frame (wpE (defs₀ (F := F)) Variants.none c none) E (cc2__linear_stats_kernel i arg1 harg1 arg2 harg2 arg3 harg3 arg4 harg4 arg5 harg5 arg6 harg6) K := by
  simp only [cc2__linear_stats_kernel_eq_skeleton]; unfold cc2__linear_stats_kernel_skel
  unfold owns
  iintro ⟨⟨%f1, %hf1, H1⟩, ⟨%f2, %hf2, H2⟩, ⟨%f3, %hf3, H3⟩, ⟨%f4, -, H4⟩, ⟨%f5, %hf5, H5⟩, ⟨%f6, %hf6, H6⟩, Hk⟩
  subst hf1 hf2 hf3 hf5 hf6
  obtain ⟨hc, rfl, rfl⟩ | ⟨hc, rfl, rfl⟩ := hb <;>
  · sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4] <;> [skip; isplitl [H5]] <;>
    · iexists _; isplitr
      swap; · first | iexact H4 | iexact H5 | iexact H6
      ipureintro
      try sl_unfold_words
      refine (View.read_writes_eq_canon _ _ _ (cover_unit_zero zero2 _ _ _)).trans ?_
      first
        | rw [View.canon_unit_zero zero2]
        | rw [View.canon_cons_unit_zero (S := S1x32) zero2, View.readCov_unit_zero (S := S1x32) _ zero2]
      simp only [View.readAt_eq_ld, View.ld_unit_zero (S := S8192x32) zero2, View.ld_unit_zero (S := S32x32) zero2,
        View.ld_unit_zero (S := S1x32) zero2]

private theorem before2_in (c : Dev nD) (t : Fin cfg2.N) :
    (∀ d, (dat2 V c).before 0 t d = iblk2 V c 0 t) ∧ (∀ d, (dat2 V c).before 1 t d = iblk2 V c 1 t) ∧
    ∀ d, (dat2 V c).before 2 t d = iblk2 V c 2 t := by
  refine ⟨?_, ?_, ?_⟩ <;> exact fun d =>
    ((dat2 V c).before_in_eq_fetched _ rfl (fun _ => rfl) (fun _ _ _ => rfl)
      (fun t => by unfold Dat.blockOf; rw [A_eq2]; rfl) t d).trans
    (by unfold Dat.fetched Dat.blockOf iblk2; rw [A_eq2]; try rfl)

-- The running sums at a point continue those of the point before; at the first point they start from the zero rows.
private theorem acc2_step (c : Dev nD) (t : Fin cfg2.N) (d4 d5) :
    ∃ b4 b5, (cond2 (grid2.coords t) ∧ b4 = k2_pay1 ∧ b5 = k2_pay2 ∨
        ¬cond2 (grid2.coords t) ∧ b4 = (dat2 V c).before 4 t d4 ∧ b5 = (dat2 V c).before 5 t d5) ∧
      acc2 V c t.val t.isLt = (k2_pay4 (iblk2 V c 0 t) (iblk2 V c 1 t) (iblk2 V c 2 t) b4,
        k2_pay5 (iblk2 V c 0 t) (iblk2 V c 1 t) (iblk2 V c 2 t) b5) := by
  obtain ⟨_ | n, hn⟩ := t
  · exact ⟨_, _, .inl ⟨(hcond2 _).mpr rfl, rfl, rfl⟩, rfl⟩
  · have hN : n + 1 < 16 := lt_of_lt_of_eq hn N_2
    refine ⟨_, _, .inr ⟨mt (hcond2 _).mp (by dsimp only; omega), rfl, rfl⟩, ?_⟩
    rw [Dat.before_out_kept _ 4 rfl ⟨n + 1, hn⟩ n.succ_ne_zero
        (Bool.eq_false_iff.mpr fun h => by have := (flush2_4 _).mp h; dsimp only at this; omega) (fun _ => rfl) (fun _ _ => rfl),
      Dat.before_out_kept _ 5 rfl ⟨n + 1, hn⟩ n.succ_ne_zero
        (Bool.eq_false_iff.mpr fun h => by have := (flush2_5 _).mp h; dsimp only at this; omega) (fun _ => rfl) (fun _ _ => rfl),
      after2_4, after2_5]
    rfl

theorem body_obligation2 (c : Dev nD) : BodyObligation (dat2 (F := F) V c) (defs₀ (F := F)) Variants.none () Set.univ := fun t => by
  obtain ⟨h0, h1, h2⟩ := before2_in V c t
  rw [bigSep_W2, bigSep_W2]
  show _ ⊢ wp _ _ _ (bodyAt2 t) _
  simp only [h0, h1, h2, after2_4, after2_5]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  obtain ⟨b4, b5, hb, ha⟩ := acc2_step V c t d4 d5
  simp only [ha]
  iapply (kernel2_run c Set.univ (grid2.coords t) _ _ _ _ _ _ _ _ _ _ _ _
    (iblk2 V c 0 t) (iblk2 V c 1 t) (iblk2 V c 2 t) ((dat2 V c).before 4 t d4) ((dat2 V c).before 5 t d5) b4 b5
    ((dat2 V c).before 3 t d3) hb _)
  iframe
  iintro H; iexact H

end Cert.KernelIdeal.Fr
-- ==== Proof.KI.R3Body.lean ====
import proofs.«120946_j80985903333894_1_alg».proof.Proof.KI.R3Defs
import proofs.«120946_j80985903333894_1_alg».proof.Proof.FrameLib

namespace Cert.KernelIdeal.Fr

open Cert.KernelIdeal Cert.KernelIdeal.Gen Cert.FrameLib
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

private theorem found1 (c : Dev nD) (t : Fin cfg3.N) :
    (∀ d, (dat3 V c).before 0 t d = iblk3 V c 0 t) ∧ (∀ d, (dat3 V c).before 1 t d = iblk3 V c 1 t) ∧
    (∀ d, (dat3 V c).before 2 t d = iblk3 V c 2 t) ∧ (∀ d, (dat3 V c).before 3 t d = iblk3 V c 3 t) ∧
    ∀ d, (dat3 V c).before 4 t d = iblk3 V c 4 t := by
  refine ⟨?_, ?_, ?_, ?_, ?_⟩ <;> exact fun d =>
    ((dat3 V c).before_in_eq_fetched _ rfl (fun _ => rfl) (fun _ _ _ => rfl)
      (fun t => by unfold Dat.blockOf; rw [A_eq3]; rfl) t d).trans
    (by unfold Dat.fetched Dat.blockOf iblk3; rw [A_eq3]; try rfl)

private theorem sound_kernel3 (c : Dev nD) (E : Set ℕ) (i : grid3.Coords)
    (ay ao : Memref sig .tc .vmem S8192x32 .f32) (am av ag ab : Memref sig .tc .vmem S1x32 .f32)
    (hy : ay.IsWhole) (hm : am.IsWhole) (hv : av.IsWhole) (hg : ag.IsWhole) (hb : ab.IsWhole) (ho : ao.IsWhole)
    (y d : Vec F S8192x32 .f32) (mu var g be : Vec F S1x32 .f32) (K : PUnit → sProp (MT nD τ sig Unit (Elt F) ℕ (UR sig nD τ) ℕ)) :
    iprop(owns c.tc ay fullShare y ∗ owns c.tc am fullShare mu ∗ owns c.tc av fullShare var ∗ owns c.tc ag fullShare g
        ∗ owns c.tc ab fullShare be ∗ owns c.tc ao fullShare d
        ∗ (iprop(owns c.tc ay fullShare y ∗ owns c.tc am fullShare mu ∗ owns c.tc av fullShare var ∗ owns c.tc ag fullShare g
              ∗ owns c.tc ab fullShare be ∗ owns c.tc ao fullShare (k3_pay1 y var g mu be)) -∗ K ⟨⟩))
      ⊢ wp frame (wpE (defs₀ (F := F)) Variants.none c none) E
          (cc3__normalize_relu_kernel i ay hy am hm av hv ag hg ab hb ao ho) K := by
  simp only [cc3__normalize_relu_kernel_eq_skeleton]; unfold cc3__normalize_relu_kernel_skel
  unfold owns
  iintro ⟨⟨%f0, %e0, H0⟩, ⟨%f1, %e1, H1⟩, ⟨%f2, %e2, H2⟩, ⟨%f3, %e3, H3⟩, ⟨%f4, %e4, H4⟩, ⟨%f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_unit_zero zero2 _ _ _), View.canon_unit_zero (S := S8192x32) zero2]
  simp only [View.readAt_eq_ld, View.ld_unit_zero (S := S8192x32) zero2, View.ld_unit_zero (S := S1x32) zero2]

theorem body_obligation3 (c : Dev nD) : BodyObligation (dat3 (F := F) V c) (defs₀ (F := F)) Variants.none () Set.univ := fun t => by
  obtain ⟨h0, h1, h2, h3, h4⟩ := found1 V c t
  rw [bigSep_W3, bigSep_W3]
  show _ ⊢ wp _ _ _ (bodyAt3 t) _
  simp only [h0, h1, h2, h3, h4]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) ((dat3 V c).before 5 t d5) (iblk3 V c 1 t) (iblk3 V c 2 t) (iblk3 V c 3 t) (iblk3 V c 4 t) _)
  iframe
  iintro H; iexact H

end Cert.KernelIdeal.Fr
-- ==== Proof.KI.R4Body.lean ====
import proofs.«120946_j80985903333894_1_alg».proof.Proof.KI.R4Defs
import proofs.«120946_j80985903333894_1_alg».proof.Proof.FrameLib
import Idealize.ShloMosaic.Lib.Pipeline.TableIdle

noncomputable section

namespace Cert.KernelIdeal.Fr

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

private abbrev own (c : Dev nD) {sp sh e} (m : Memref sig .tc sp sh e) (x : sh.Idx → Elt F e) : sProp 𝕄 :=
  owns (c : Thread nD τ) m fullShare x

abbrev cond4_0 (i : grid4.Coords) : Prop :=
  (Scalar.cmpi .ne (Scalar.extui (Scalar.cmpi .eq (BitVec.ofNat 32 (i 0).val) 0#32)) 0#32) = 1#1
abbrev cond4_1 (i : grid4.Coords) : Prop := k4_cond2 i = 1#1

-- Each point runs exactly one of the three control cases.
private theorem cases4 : ∀ t : Fin cfg4.N,
    (t.val = 0 ∧ cond4_0 (grid4.coords t) ∧ ¬cond4_1 (grid4.coords t) ∧ cfg4.idle 5 (grid4.coords t) = true ∧ (cfg4.win 5).flush t = false)
    ∨ (t.val ≠ 0 ∧ ¬cond4_0 (grid4.coords t) ∧ ¬cond4_1 (grid4.coords t) ∧ cfg4.idle 5 (grid4.coords t) = true ∧ (cfg4.win 5).flush t = false)
    ∨ (t.val ≠ 0 ∧ ¬cond4_0 (grid4.coords t) ∧ cond4_1 (grid4.coords t) ∧ cfg4.idle 5 (grid4.coords t) = false) := by decide +kernel

private theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t)
      ∧ (∀ d, (dat4 V c).before 4 t d = iblk4 V c 4 t) := by
  refine ⟨?_, ?_, ?_, ?_, ?_⟩ <;> intro d <;>
    exact ((dat4 V c).before_in_eq_fetched _ rfl (fun _ => rfl) (fun _ _ _ => rfl)
      (fun t => by simp only [after4_0, after4_1, after4_2, after4_3, after4_4]; unfold Dat.blockOf iblk4; rw [A_eq4]; try rfl) t d).trans
      (by unfold Dat.fetched Dat.blockOf iblk4; rw [A_eq4]; try rfl)

theorem PhiA4_eq (c : Dev nD) :
    (Pipeline.ΦA spec4 c : sProp 𝕄)
      = iprop(iprop((∃ d, own c scM4 d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

theorem PhiS4_zero (c : Dev nD) (n : ℕ) (h : n ≤ cfg4.N) (hz : n = 0) : PhiS4 V c n h = Pipeline.ΦA spec4 c := by
  subst hz; rfl

theorem PhiS4_pos (c : Dev nD) (n : ℕ) (h : n ≤ cfg4.N) (hz : n ≠ 0) :
    PhiS4 V c n h = iprop(own c scM4 (sacc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem sacc4_pos (c : Dev nD) (t : Fin cfg4.N) (hz : t.val ≠ 0) :
    sacc4 V c t.val t.isLt = k4_pay2 (iblk4 V c 0 t) (iblk4 V c 1 t) (sacc4 V c (t.val - 1) (Nat.lt_of_le_of_lt (Nat.sub_le _ _) t.isLt)) := by
  obtain ⟨_ | n, hn⟩ := t
  · exact absurd rfl hz
  · rfl

theorem sacc4_zero (c : Dev nD) (t : Fin cfg4.N) (hz : t.val = 0) :
    sacc4 V c t.val t.isLt = k4_pay2 (iblk4 V c 0 t) (iblk4 V c 1 t) (k4_pay1 (F := F)) := by
  obtain ⟨_ | n, hn⟩ := t
  · rfl
  · exact absurd hz (Nat.succ_ne_zero n)

-- The body's triple on whole buffers, its three control cases at once.
private theorem run4 {c : Dev nD} {E} {i : grid4.Coords} {arg1 : Memref sig .tc .vmem S16x4096 .bf16} {arg2 : Memref sig .tc .vmem S4096x512 .bf16} {arg3 : Memref sig .tc .vmem S1x512 .f32} {arg4 : Memref sig .tc .vmem S512x2 .bf16} {arg5 : Memref sig .tc .vmem S1x2 .f32} {arg6 : Memref sig .tc .vmem S16x2 .f32} {arg7 : Memref sig .tc .vmem S16x512 .f32}
    {harg1 harg2 harg3 harg4 harg5 harg6 harg7 x0 x1 x2 x3 x4 x5 y5 xs ys} {K : PUnit → sProp 𝕄}
    (h : (cond4_0 i ∧ ¬cond4_1 i ∧ y5 = x5 ∧ ys = k4_pay2 x0 x1 (k4_pay1 (F := F)))
      ∨ (¬cond4_0 i ∧ ¬cond4_1 i ∧ y5 = x5 ∧ ys = k4_pay2 x0 x1 xs)
      ∨ (¬cond4_0 i ∧ cond4_1 i ∧ y5 = k4_pay3 (k4_pay2 x0 x1 xs) x2 x3 x4 ∧ ys = k4_pay2 x0 x1 xs)) :
    let I : sProp 𝕄 := iprop(own c arg1 x0 ∗ own c arg2 x1 ∗ own c arg3 x2 ∗ own c arg4 x3 ∗ own c arg5 x4)
    iprop(I ∗ own c arg6 x5 ∗ own c arg7 xs
        ∗ (iprop(I ∗ own c arg6 y5 ∗ own c arg7 ys) -∗ K ⟨⟩))
      ⊢ wp frame (wpE (defs₀ (F := F)) Variants.none c none) E (cc4__fc_head_kernel i arg1 harg1 arg2 harg2 arg3 harg3 arg4 harg4 arg5 harg5 arg6 harg6 arg7 harg7) K := by
  simp only [cc4__fc_head_kernel_eq_skeleton]; unfold cc4__fc_head_kernel_skel
  simp only [own, owns_eq_rep]
  iintro ⟨⟨H0, H1, H2, H3, H4⟩, H5, HS, Hk⟩
  rcases h with ⟨hc0, hc1, rfl, rfl⟩ | ⟨hc0, hc1, rfl, rfl⟩ | ⟨hc0, hc1, rfl, rfl⟩ <;>
  · sl_exec (disch := first | exact hc0 | exact hc1)
    sl_step
    iapply Hk
    iframe
    (try isplitl [H5]) <;>
    · iapply rep_of_owns; unfold owns; iexists _; isplitr
      rotate_left; · iassumption
      ipureintro; sl_unfold_words
      refine (View.read_writes_eq_canon _ _ _ (cover_unit_zero zero2 _ _ _)).trans ?_
      simp only [View.canon_cons_unit_zero (S := S16x512) zero2, View.canon_cons_unit_zero (S := S16x2) zero2, View.readCov_unit_zero (S := S16x512) _ zero2, View.readAt_eq_ld, View.read_rep, View.ld_unit_zero (S := S16x4096) zero2, View.ld_unit_zero (S := S4096x512) zero2, View.ld_unit_zero (S := S16x512) zero2, View.ld_unit_zero (S := S1x512) zero2, View.ld_unit_zero (S := S512x2) zero2, View.ld_unit_zero (S := S1x2) zero2]

theorem sound_body4 (c : Dev nD) (t : Fin cfg4.N) :
    iprop(PhiS4 V c t.val (Nat.le_of_lt t.isLt) ∗ (dat4 V c).owesAt () t.castSucc
      ∗ (∃ d, own c (st4_0 t) ((dat4 V c).before 0 t d)) ∗ (∃ d, own c (st4_1 t) ((dat4 V c).before 1 t d))
      ∗ (∃ d, own c (st4_2 t) ((dat4 V c).before 2 t d)) ∗ (∃ d, own c (st4_3 t) ((dat4 V c).before 3 t d))
      ∗ (∃ d, own c (st4_4 t) ((dat4 V c).before 4 t d)) ∗ (∃ d, own c (st4_5 t) ((dat4 V c).before 5 t d)))
    ⊢ wp frame (wpE (defs₀ (F := F)) Variants.none c none) Set.univ (bodyAt4 t) (fun _ =>
      iprop(PhiS4 V c (t.val + 1) t.isLt ∗ (dat4 V c).owesAt () t.castSucc
        ∗ own c (st4_0 t) (iblk4 V c 0 t) ∗ own c (st4_1 t) (iblk4 V c 1 t) ∗ own c (st4_2 t) (iblk4 V c 2 t)
        ∗ own c (st4_3 t) (iblk4 V c 3 t) ∗ own c (st4_4 t) (iblk4 V c 4 t) ∗ (dat4 V c).leavesExact 5 t)) := by
  obtain ⟨b0, b1, b2, b3, b4⟩ := before4 V c t
  unfold bodyAt4
  simp only [b0, b1, b2, b3, b4]
  rw [PhiS4_pos V c _ _ (Nat.succ_ne_zero _)]
  simp only [Nat.succ_sub_one]
  rcases cases4 t with ⟨hz, hc0, hc1, hi, hf⟩ | ⟨hz, hc0, hc1, hi, hf⟩ | ⟨hz, hc0, hc1, hi⟩
  · rw [Dat.leavesExact_idle (dat4 V c) 5 t hi hf, sacc4_zero V c t hz, PhiS4_zero V c _ _ hz, PhiA4_eq]
    iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩⟩
    iapply (run4 (.inl ⟨hc0, hc1, rfl, rfl⟩))
    iframe
    iintro ⟨⟨H0, H1, H2, H3, H4⟩, H5, HS⟩
    iframe
    iexists d5; iexact H5
  · rw [Dat.leavesExact_idle (dat4 V c) 5 t hi hf, sacc4_pos V c t hz, PhiS4_pos V c _ _ hz]
    iintro ⟨⟨HS, Hr, Hg⟩, Ho, ⟨%d0, H0⟩, ⟨%d1, H1⟩, ⟨%d2, H2⟩, ⟨%d3, H3⟩, ⟨%d4, H4⟩, ⟨%d5, H5⟩⟩
    iapply (run4 (.inr (.inl ⟨hc0, hc1, rfl, rfl⟩)))
    iframe
    iintro ⟨⟨H0, H1, H2, H3, H4⟩, H5, HS⟩
    iframe
    iexists d5; iexact H5
  · unfold Dat.leavesExact
    rw [hi, after4_5]
    unfold out4
    rw [sacc4_pos V c t hz, PhiS4_pos V c _ _ hz]
    iintro ⟨⟨HS, Hr, Hg⟩, Ho, ⟨%d0, H0⟩, ⟨%d1, H1⟩, ⟨%d2, H2⟩, ⟨%d3, H3⟩, ⟨%d4, H4⟩, ⟨%d5, H5⟩⟩
    iapply (run4 (.inr (.inr ⟨hc0, hc1, rfl, rfl⟩)))
    iframe
    iintro ⟨⟨H0, H1, H2, H3, H4⟩, H5, HS⟩
    iframe

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := Entails.refl _

theorem hout4 (c : Dev nD) : (dat4 V c).Φ (Fin.last cfg4.N) ⊢ Pipeline.ΦA spec4 c := by
  rw [show (dat4 V c).Φ (Fin.last cfg4.N) = PhiS4 V c cfg4.N (Nat.le_refl _) from rfl, PhiS4_pos V c _ _ (N_4.trans_ne (by decide)), PhiA4_eq]
  iintro ⟨HS, Hr, Hg⟩
  iframe
  iexists _; iexact HS

end Cert.KernelIdeal.Fr

end
-- ==== Proof.KI.Run.lean ====
import proofs.«120946_j80985903333894_1_alg».proof.Proof.KI.Fold
import proofs.«120946_j80985903333894_1_alg».proof.Proof.KI.R0Body
import proofs.«120946_j80985903333894_1_alg».proof.Proof.KI.R1Body
import proofs.«120946_j80985903333894_1_alg».proof.Proof.KI.R2Body
import proofs.«120946_j80985903333894_1_alg».proof.Proof.KI.R3Body
import proofs.«120946_j80985903333894_1_alg».proof.Proof.KI.R4Body

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 5) → (c : Dev nD) → Pipeline.Dat τ (Elt F) Unit ℕ (UR sig nD τ) ℕ (cfgs p) c
  | ⟨0, _⟩ => dat0 (E1 m)
  | ⟨1, _⟩ => dat1 (E3 m)
  | ⟨2, _⟩ => dat2 (E5 m)
  | ⟨3, _⟩ => dat3 (E7 m)
  | ⟨4, _⟩ => dat4 (E13 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The segment of region `p`, from contents `W` to contents `W'`; what holds by `rfl` at a numeral `p` is a hypothesis here. -/
private def reg {p : Fin 5} (l : Pipeline.LaunchFacts (nD := nD) (τ := τ) cfgs p) (W W' : Dev nD → Valuation τ sig (Elt F))
    (hb : ∀ c, Pipeline.BodyObligation (pdats m p c) defs₀ 𝒱₀ () Set.univ)
    (hF : ∀ c w, (pdats m p c).arrAt w (cfgs p).N = W' c (Proc.devRef .tc (Pipeline.arrRef (cfgs p).spec w)))
    (hr : ∀ c, ∀ b ∉ Finset.image (Pipeline.arrRef (cfgs p).spec) Finset.univ, W' c (Proc.devRef .tc b) = W c (Proc.devRef .tc b))
    (hi : ∀ c, Pipeline.ΦA (cfgs p).spec c ⊢ (pdats m p c).Φ 0 := by exact fun _ => .rfl)
    (ho : ∀ c, (pdats m p c).Φ (Fin.last _) ⊢ Pipeline.ΦA (cfgs p).spec c := by exact fun _ => .rfl)
    (h0 : ∀ c t, (pdats m p c).owed t = 0 := by exact fun _ _ => rfl)
    (hq : ∀ c w, (pdats m p c).share w = fullShare := by exact fun _ => Pipeline.Dat.share_full _ fun _ => rfl)
    (hA : ∀ c w, (pdats m p c).A w = W c (Proc.devRef .tc (Pipeline.arrRef (cfgs p).spec w)) := by exact fun _ _ => rfl)
    (hB : ∀ c (V : Finset (SemLoc sig × Unit)), ↑V ⊆ (pdats m p c).bound () 0 := by exact fun _ _ _ _ => .inl trivial) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p h0
  pre := T W
  post := T W'
  X c := iprop(∃ r, prngReg c r)
  Y c := iprop(∃ r, prngReg c r)
  Z c := Pipeline.unscopedRest (cfgs p).spec c fun b => W c (Proc.devRef .tc b)
  hentry c := by
    have h := Pipeline.arrays_of_unscopedBufs (pcfgs (F := F)) adm (pdats m) l.win l.arr_whole c (hq c) (fun b => W c (Proc.devRef .tc b)) (hA c)
    rw [Pipeline.unscopedBufs_held] at h
    unfold Pipeline.prefHeld Pipeline.Dat.owesAt Pipeline.owesWithin
    rw [h0, Finset.univ_eq_empty, BI.bigSep_empty]
    iintro ⟨⟨Hub, Hp, %V, HO⟩, -⟩
    ihave ⟨Ha, Hz⟩ := h $$ Hub
    imodintro
    iframe
    isplitr; · iempintro
    iexists V
    iframe
    ipureintro; exact hB c V
  hin c := by
    refine .trans ?_ (hi c); unfold Pipeline.ΦA
    iintro ⟨Hp, -, Hr⟩
    iframe
  hout c := by
    refine (ho c).trans ?_; rw [Pipeline.ownSems0_none]; unfold Pipeline.ΦA
    iintro ⟨Hr, Hp⟩
    iframe
    iempintro
  hexit c := by
    have h := Pipeline.unscopedBufs_of_arrays (pcfgs (F := F)) adm l.win l.arr_whole c (pdats m) (hq c)
      (fun b => W c (Proc.devRef .tc b)) (fun b => W' c (Proc.devRef .tc b)) _ (hF c) (hr c)
    rw [Pipeline.unscopedBufs_held] at h
    unfold Pipeline.Dat.owesAt Pipeline.owesWithin
    rw [h0]
    iintro ⟨Ha, ⟨%V, -, HO⟩, HY, Hz⟩
    imodintro
    isplitl [Ha Hz]
    · iapply h; iframe
    isplitl [HY]; · iexact HY
    iexists V; iexact HO

def reg0 := reg m launch0 (W1 m) (W2 m) (body_obligation0 (E1 m)) (hF0 m) (hrest0 m)
def reg1 := reg m launch1 (W3 m) (W4 m) (body_obligation1 (E3 m)) (hF1 m) (hrest1 m)
def reg2 := reg m launch2 (W5 m) (W6 m) (body_obligation2 (E5 m)) (hF2 m) (hrest2 m)
def reg3 := reg m launch3 (W7 m) (W8 m) (body_obligation3 (E7 m)) (hF3 m) (hrest3 m)
def reg4 := reg m launch4 (W13 m) (W14 m) (body_obligation4 (E13 m)) (hF4 m) (hrest4 m) (hin4 (E13 m)) (hout4 (E13 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .host (hseg hostOps4_3 hostOps4_3_sub hostOps4_3_fresh (W11 m)),
    .host (hseg hostOps4_4 hostOps4_4_sub hostOps4_4_fresh (W12 m)),
    .region (reg4 m) ]

theorem main_run (c : Dev nD) : main (F := F) c = Pipeline.Seg.run (segs m) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := Rounds.initOf (Pipeline.cells cfgs cellOf_inj) (Pipeline.launchToks cfgs cellOf_inj))
    (hu₀ := by rw [BI.bigSep_emp_const]; exact sep_emp.2.trans fupd_intro)
    (T₀ := T (W0 m))
    (Tₙ := fun c => iprop(StableHlo.held (c : Thread nD τ) (Pipeline.ucRefs τ sig) (W14 m c) ∗ ∃ r, prngReg c r))
    (hch := by iterate 14 refine ⟨fun _ => .rfl, ?_⟩
               exact fun _ => sep_assoc.2)
    (hinit := Pipeline.initEach L lv fun c => by
      unfold T; rw [← Pipeline.unscopedBufs_held]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply pointsTo_read_all _ (fun b => ((c : Thread nD τ).1, b)) (W14 m c) s'
      iframe)
    (hQ := fun _ h => h)

end Cert.KernelIdeal.Fr

end
-- ==== Proof.KI.Keep.lean ====
import proofs.«120946_j80985903333894_1_alg».proof.Proof.KI.Fold

noncomputable section

namespace Cert.KernelIdeal.Fr

open Cert.KernelIdeal Cert.KernelIdeal.Gen Idealize.ShloMosaic TcCoe Pipeline StableHlo

variable {F : FTy → Type} [FloatOps F] (m : (ℓ : Loc nD τ sig) → Buf (Elt F) ℓ)

/-- A reference nothing writes: it is in no stretch's write list and is no region's array; and it is not scoped. -/
structure Kept (r : Ref sig .tc) : Prop where
  u : ¬ (Proc.devRef (τ := τ) .tc r).isScoped
  h0 : r ∉ hostOps0_W
  r0 : ∀ w, arrRef spec0 w ≠ r
  h1 : r ∉ hostOps1_W
  r1 : ∀ w, arrRef spec1 w ≠ r
  h2 : r ∉ hostOps2_W
  r2 : ∀ w, arrRef spec2 w ≠ r
  h3 : r ∉ hostOps3_W
  r3 : ∀ w, arrRef spec3 w ≠ r
  h4 : r ∉ hostOps4_W
  h4_1 : r ∉ hostOps4_1_W
  h4_2 : r ∉ hostOps4_2_W
  h4_3 : r ∉ hostOps4_3_W
  h4_4 : r ∉ hostOps4_4_W
  r4 : ∀ w, arrRef spec4 w ≠ r

section
variable {r : Ref sig .tc} (k : Kept r) (c : Dev nD)
include k

theorem keepW0 : W0 m c r = m ((c : Thread nD τ).loc r) := rfl
theorem keepW1 : W1 m c r = m ((c : Thread nD τ).loc r) :=
  (after_of_writes_sub hostOps0 _ hostOps0_writes k.h0).trans (keepW0 m k c)
theorem keepW2 : W2 m c r = m ((c : Thread nD τ).loc r) :=
  (W2_of_ne m c r k.r0).trans (keepW1 m k c)
theorem keepW3 : W3 m c r = m ((c : Thread nD τ).loc r) :=
  (after_of_writes_sub hostOps1 _ hostOps1_writes k.h1).trans (keepW2 m k c)
theorem keepW4 : W4 m c r = m ((c : Thread nD τ).loc r) :=
  (W4_of_ne m c r k.r1).trans (keepW3 m k c)
theorem keepW5 : W5 m c r = m ((c : Thread nD τ).loc r) :=
  (after_of_writes_sub hostOps2 _ hostOps2_writes k.h2).trans (keepW4 m k c)
theorem keepW6 : W6 m c r = m ((c : Thread nD τ).loc r) :=
  (W6_of_ne m c r k.r2).trans (keepW5 m k c)
theorem keepW7 : W7 m c r = m ((c : Thread nD τ).loc r) :=
  (after_of_writes_sub hostOps3 _ hostOps3_writes k.h3).trans (keepW6 m k c)
theorem keepW8 : W8 m c r = m ((c : Thread nD τ).loc r) :=
  (W8_of_ne m c r k.r3).trans (keepW7 m k c)
theorem keepW9 : W9 m c r = m ((c : Thread nD τ).loc r) :=
  (after_of_writes_sub hostOps4 _ hostOps4_writes k.h4).trans (keepW8 m k c)
theorem keepW10 : W10 m c r = m ((c : Thread nD τ).loc r) :=
  (after_of_writes_sub hostOps4_1 _ hostOps4_1_writes k.h4_1).trans (keepW9 m k c)
theorem keepW11 : W11 m c r = m ((c : Thread nD τ).loc r) :=
  (after_of_writes_sub hostOps4_2 _ hostOps4_2_writes k.h4_2).trans (keepW10 m k c)
theorem keepW12 : W12 m c r = m ((c : Thread nD τ).loc r) :=
  (after_of_writes_sub hostOps4_3 _ hostOps4_3_writes k.h4_3).trans (keepW11 m k c)
theorem keepW13 : W13 m c r = m ((c : Thread nD τ).loc r) :=
  (after_of_writes_sub hostOps4_4 _ hostOps4_4_writes k.h4_4).trans (keepW12 m k c)
theorem keepW14 : W14 m c r = m ((c : Thread nD τ).loc r) :=
  (W14_of_ne m c r k.r4).trans (keepW13 m k c)

end

theorem kept_arg0 : Kept main_arg0 := by constructor <;> decide
theorem kept_arg1 : Kept main_arg1 := by constructor <;> decide
theorem kept_arg2 : Kept main_arg2 := by constructor <;> decide
theorem kept_arg3 : Kept main_arg3 := by constructor <;> decide
theorem kept_arg4 : Kept main_arg4 := by constructor <;> decide
theorem kept_arg5 : Kept main_arg5 := by constructor <;> decide
theorem kept_arg6 : Kept main_arg6 := by constructor <;> decide
theorem kept_arg7 : Kept main_arg7 := by constructor <;> decide
theorem kept_arg8 : Kept main_arg8 := by constructor <;> decide
theorem kept_arg9 : Kept main_arg9 := by constructor <;> decide
theorem kept_arg10 : Kept main_arg10 := by constructor <;> decide
theorem kept_arg11 : Kept main_arg11 := by constructor <;> decide
theorem kept_arg12 : Kept main_arg12 := by constructor <;> decide
theorem kept_arg13 : Kept main_arg13 := by constructor <;> decide
theorem kept_arg14 : Kept main_arg14 := by constructor <;> decide
theorem kept_arg15 : Kept main_arg15 := by constructor <;> decide
theorem kept_arg16 : Kept main_arg16 := by constructor <;> decide

theorem frame_post (c : Dev nD) (s : MemSt nD τ sig (Elt F))
    (h : ∀ b ∈ ucRefs τ sig, s.mem (((c : Thread nD τ)).1, b) = W14 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16) :=
  have e {r : Ref sig .tc} (k : Kept r) : s.mem ((c.tc : Thread nD τ).loc r) = m ((c.tc : Thread nD τ).loc r) :=
    (h _ (Finset.mem_filter.mpr ⟨devRef_mem_tcRefs r, k.u⟩)).trans (keepW14 m k c)
  ⟨e kept_arg0, e kept_arg1, e kept_arg2, e kept_arg3, e kept_arg4, e kept_arg5, e kept_arg6, e kept_arg7, e kept_arg8, e kept_arg9, e kept_arg10, e kept_arg11, e kept_arg12, e kept_arg13, e kept_arg14, e kept_arg15, e kept_arg16⟩

end Cert.KernelIdeal.Fr

end
-- ==== Proof.Spec.lean ====
import Idealize.ShloMosaic.PureOps.Ideal.Laws
import Idealize.ShloMosaic.Lib.ValueIdx

noncomputable section

namespace Cert.Spec

open Idealize.ShloMosaic

abbrev NR : ℕ := 131072

def cnt : EReal := Ideal.ofBits .f32 0x48000000#32
def eps : EReal := Ideal.ofBits .f32 0x3727C5AC#32

def Fin' (x : EReal) : Prop := x ≠ ⊤ ∧ x ≠ ⊥

def affine {K : ℕ} (L : Fin NR → Fin K → EReal) (W : Fin K → Fin 32 → EReal) (b : Fin 32 → EReal) :
    Fin NR → Fin 32 → EReal := fun r j => (∑ k, L r k * W k j) + b j

def mean (Y : Fin NR → Fin 32 → EReal) : Fin 32 → EReal := fun j => Ideal.div (∑ r, Y r j) cnt

def varK (Y : Fin NR → Fin 32 → EReal) : Fin 32 → EReal :=
  fun j => max (Ideal.div (∑ r, Y r j * Y r j) cnt - mean Y j * mean Y j) 0

def varR (Y : Fin NR → Fin 32 → EReal) : Fin 32 → EReal :=
  fun j => Ideal.div (∑ r, (Y r j - mean Y j) * (Y r j - mean Y j)) cnt

def norm (Y : Fin NR → Fin 32 → EReal) (v g be : Fin 32 → EReal) : Fin NR → Fin 32 → EReal :=
  fun r j => max (g j * (Y r j - mean Y j) * Ideal.rsqrt (v j + eps) + be j) 0

def layerK {K : ℕ} (L : Fin NR → Fin K → EReal) (W : Fin K → Fin 32 → EReal) (b g be : Fin 32 → EReal) :
    Fin NR → Fin 32 → EReal := norm (affine L W b) (varK (affine L W b)) g be

def layerR {K : ℕ} (L : Fin NR → Fin K → EReal) (W : Fin K → Fin 32 → EReal) (b g be : Fin 32 → EReal) :
    Fin NR → Fin 32 → EReal := norm (affine L W b) (varR (affine L W b)) g be

def cat (O : Fin NR → Fin 32 → EReal) (EX : Fin 16 → Fin 32 → EReal) (g : Fin 16) (k : Fin 262176) : EReal :=
  if h : k.val < 262144 then O ⟨(k.val / 32) * 16 + g.val, by show _ < 131072; omega⟩ ⟨k.val % 32, Nat.mod_lt _ (by decide)⟩
  else EX g ⟨k.val - 262144, by omega⟩

def head (O : Fin NR → Fin 32 → EReal) (EX : Fin 16 → Fin 32 → EReal) (FW : Fin 262176 → Fin 512 → EReal)
    (fb : Fin 512 → EReal) (F2 : Fin 512 → Fin 2 → EReal) (f2b : Fin 2 → EReal) : Fin 16 → Fin 2 → EReal :=
  fun g o => (∑ n, max ((∑ k, cat O EX g k * FW k n) + fb n) 0 * F2 n o) + f2b o

def outK (L1 : Fin NR → Fin 64 → EReal) (sp : (Fin NR → Fin 32 → EReal) → Fin NR → Fin 32 → EReal)
    (W1 : Fin 64 → Fin 32 → EReal) (b1 g1 be1 : Fin 32 → EReal) (W2 : Fin 32 → Fin 32 → EReal) (b2 g2 be2 : Fin 32 → EReal)
    (EX : Fin 16 → Fin 32 → EReal) (FW : Fin 262176 → Fin 512 → EReal) (fb : Fin 512 → EReal)
    (F2 : Fin 512 → Fin 2 → EReal) (f2b : Fin 2 → EReal) : Fin 16 → Fin 2 → EReal :=
  head (layerK (sp (layerK L1 W1 b1 g1 be1)) W2 b2 g2 be2) EX FW fb F2 f2b

def outR (L1 : Fin NR → Fin 64 → EReal) (sp : (Fin NR → Fin 32 → EReal) → Fin NR → Fin 32 → EReal)
    (W1 : Fin 64 → Fin 32 → EReal) (b1 g1 be1 : Fin 32 → EReal) (W2 : Fin 32 → Fin 32 → EReal) (b2 g2 be2 : Fin 32 → EReal)
    (EX : Fin 16 → Fin 32 → EReal) (FW : Fin 262176 → Fin 512 → EReal) (fb : Fin 512 → EReal)
    (F2 : Fin 512 → Fin 2 → EReal) (f2b : Fin 2 → EReal) : Fin 16 → Fin 2 → EReal :=
  head (layerR (sp (layerR L1 W1 b1 g1 be1)) W2 b2 g2 be2) EX FW fb F2 f2b

end Cert.Spec

end
-- ==== Proof.Sparse.lean ====
import proofs.«120946_j80985903333894_1_alg».proof.Proof.Gen.KernelIdeal
import Idealize.ShloMosaic.Lib.ValueIdx

noncomputable section

namespace Cert.Sparse

open Idealize.ShloMosaic Cert.KernelIdeal Cert.KernelIdeal.Facts₀ Cert.KernelIdeal.Facts

variable {F : FTy → Type} [FloatOps F]

def wrapCols (ec : (⟨S131072, .i32⟩ : BufTy).Contents (Elt F)) : (⟨S131072x1, .i32⟩ : BufTy).Contents (Elt F) :=
  broadcastInDim S131072x1 ![0] bcast_S131072_S131072x1_0
    (select (cmpi .slt ec (broadcastInDim S131072 ![] bcast_S_S131072 (constantI S_ 32 0#32)))
      (addi ec (broadcastInDim S131072 ![] bcast_S_S131072 (constantI S_ 32 8192#32))) ec)

def spmm1 (x : (⟨S8192x1024, .f32⟩ : BufTy).Contents (Elt F)) (er ec : (⟨S131072, .i32⟩ : BufTy).Contents (Elt F))
    (ev : (⟨S131072, .f32⟩ : BufTy).Contents (Elt F)) : (⟨S8192x1024, .f32⟩ : BufTy).Contents (Elt F) :=
  Host.scatterAdd scatter_S8192x1024_S131072x1_S131072x1024_1_0_0_1
    (broadcastInDim S8192x1024 ![] bcast_S_S8192x1024 (constant S_ .f32 0x00000000#32))
    (broadcastInDim S131072x1 ![0] bcast_S131072_S131072x1_0 er)
    (mulf (broadcastInDim S131072x1024 ![0, 1] bcast_S131072x1_S131072x1024_0_1 (broadcastInDim S131072x1 ![0] bcast_S131072_S131072x1_0 ev))
      (Host.gather gather_S8192x1024_S131072x1_S131072x1024_1_0_n_n_0_1_11024 x (wrapCols ec)))

def spmm2 (x : (⟨S8192x512, .f32⟩ : BufTy).Contents (Elt F)) (er ec : (⟨S131072, .i32⟩ : BufTy).Contents (Elt F))
    (ev : (⟨S131072, .f32⟩ : BufTy).Contents (Elt F)) : (⟨S8192x512, .f32⟩ : BufTy).Contents (Elt F) :=
  Host.scatterAdd scatter_S8192x512_S131072x1_S131072x512_1_0_0_1
    (broadcastInDim S8192x512 ![] bcast_S_S8192x512 (constant S_ .f32 0x00000000#32))
    (broadcastInDim S131072x1 ![0] bcast_S131072_S131072x1_0 er)
    (mulf (broadcastInDim S131072x512 ![0, 1] bcast_S131072x1_S131072x512_0_1 (broadcastInDim S131072x1 ![0] bcast_S131072_S131072x1_0 ev))
      (Host.gather gather_S8192x512_S131072x1_S131072x512_1_0_n_n_0_1_1512 x (wrapCols ec)))

def lx1 (X : (⟨S16x8192x64, .f32⟩ : BufTy).Contents (Elt F)) (er ec : (⟨S131072, .i32⟩ : BufTy).Contents (Elt F))
    (ev : (⟨S131072, .f32⟩ : BufTy).Contents (Elt F)) : (⟨S131072x64, .f32⟩ : BufTy).Contents (Elt F) :=
  shapeCast S131072x64 (spmm1 (shapeCast S8192x1024 (transpose S8192x16x64 [1, 0, 2] X transposes_S16x8192x64_S8192x16x64_1_0_2) shapeCasts_S8192x16x64_S8192x1024) er ec ev)
    shapeCasts_S8192x1024_S131072x64

def lx2 (O : (⟨S131072x32, .f32⟩ : BufTy).Contents (Elt F)) (er ec : (⟨S131072, .i32⟩ : BufTy).Contents (Elt F))
    (ev : (⟨S131072, .f32⟩ : BufTy).Contents (Elt F)) : (⟨S131072x32, .f32⟩ : BufTy).Contents (Elt F) :=
  shapeCast S131072x32 (spmm2 (shapeCast S8192x512 O shapeCasts_S131072x32_S8192x512) er ec ev) shapeCasts_S8192x512_S131072x32

end Cert.Sparse

end
-- ==== Proof.Model.lean ====
import proofs.«120946_j80985903333894_1_alg».proof.Proof.Spec
import proofs.«120946_j80985903333894_1_alg».proof.Proof.Sparse

noncomputable section

namespace Cert.Model

open Idealize.ShloMosaic Idealize.ShloMosaic.ValueIdx Cert.KernelIdeal

variable (X : (⟨S16x8192x64, .f32⟩ : BufTy).Contents (Elt Ideal)) (EX : (⟨S16x32, .f32⟩ : BufTy).Contents (Elt Ideal))
  (er ec : (⟨S131072, .i32⟩ : BufTy).Contents (Elt Ideal)) (ev : (⟨S131072, .f32⟩ : BufTy).Contents (Elt Ideal))
  (W1 : (⟨S64x32, .f32⟩ : BufTy).Contents (Elt Ideal)) (b1 g1 be1 : (⟨S32, .f32⟩ : BufTy).Contents (Elt Ideal))
  (W2 : (⟨S32x32, .f32⟩ : BufTy).Contents (Elt Ideal)) (b2 g2 be2 : (⟨S32, .f32⟩ : BufTy).Contents (Elt Ideal))
  (FW : (⟨S262176x512, .f32⟩ : BufTy).Contents (Elt Ideal)) (fb : (⟨S512, .f32⟩ : BufTy).Contents (Elt Ideal))
  (F2 : (⟨S512x2, .f32⟩ : BufTy).Contents (Elt Ideal)) (f2b : (⟨S2, .f32⟩ : BufTy).Contents (Elt Ideal))

def rows1 : Fin Spec.NR → Fin 64 → EReal := fun r k => Sparse.lx1 (F := Ideal) X er ec ev (ix2 r k)

def arr32 (O : Fin Spec.NR → Fin 32 → EReal) : (⟨S131072x32, .f32⟩ : BufTy).Contents (Elt Ideal) := fun i => O (i 0) (i 1)

def rows2 (O : Fin Spec.NR → Fin 32 → EReal) : Fin Spec.NR → Fin 32 → EReal :=
  fun r j => Sparse.lx2 (F := Ideal) (arr32 O) er ec ev (ix2 r j)

def modelK : Fin 16 → Fin 2 → EReal :=
  Spec.outK (rows1 X er ec ev) (rows2 er ec ev) (fun k j => W1 (ix2 k j)) (fun j => b1 (ix1 j)) (fun j => g1 (ix1 j)) (fun j => be1 (ix1 j))
    (fun k j => W2 (ix2 k j)) (fun j => b2 (ix1 j)) (fun j => g2 (ix1 j)) (fun j => be2 (ix1 j))
    (fun g k => EX (ix2 g k)) (fun k n => FW (ix2 k n)) (fun n => fb (ix1 n)) (fun n o => F2 (ix2 n o)) (fun o => f2b (ix1 o))

def modelR : Fin 16 → Fin 2 → EReal :=
  Spec.outR (rows1 X er ec ev) (rows2 er ec ev) (fun k j => W1 (ix2 k j)) (fun j => b1 (ix1 j)) (fun j => g1 (ix1 j)) (fun j => be1 (ix1 j))
    (fun k j => W2 (ix2 k j)) (fun j => b2 (ix1 j)) (fun j => g2 (ix1 j)) (fun j => be2 (ix1 j))
    (fun g k => EX (ix2 g k)) (fun k n => FW (ix2 k n)) (fun n => fb (ix1 n)) (fun n o => F2 (ix2 n o)) (fun o => f2b (ix1 o))

end Cert.Model

end
-- ==== Proof.KI.R0Val.lean ====
import proofs.«120946_j80985903333894_1_alg».proof.Proof.KI.R0Defs
import Idealize.ShloMosaic.Lib.ValueLayout
import Idealize.ShloMosaic.PureOps.Ideal.Laws

noncomputable section

namespace Cert.KernelIdeal.Fr

open Cert.KernelIdeal.Gen
open Idealize.ShloMosaic Idealize.ShloMosaic.TcCoe Idealize.ShloMosaic.ValueIdx

variable (V : (c : Dev nD) → (b : Ref sig .tc) → Buf (Elt Ideal) ((c : Thread nD τ).loc b))

-- The product into the zero accumulator is the sum over the contracted coordinate of the entries' products.
theorem mm0_apply (x : FVec Ideal S8192x64 .bf16) (w : FVec Ideal S64x32 .bf16) (p : Fin 8192) (q : Fin 32) :
    matmul dot_S8192x64_S64x32_S8192x32_1_0_0_1_n_n none x w (constant (F := Ideal) S8192x32 .f32 0x00000000#32) (ix2 p q)
      = ∑ k : Fin 64, x (ix2 p k) * w (ix2 k q) := by
  simp only [matmul]
  rw [Ideal.matmul_constant_zero_apply, ← Equiv.sum_comp (contrEquiv1 _ 64 rfl rfl).symm]
  refine Finset.sum_congr rfl fun k _ => ?_
  have hk := contrEquiv1_symm_val dot_S8192x64_S64x32_S8192x32_1_0_0_1_n_n 64 rfl rfl k
  exact congrArg₂ (· * ·)
    (congrArg x (Shape.idx_ext₂ rfl ((DotDims.lhsIdx_val_of_single _ rfl _ _).trans hk)))
    (congrArg w (Shape.idx_ext₂ ((DotDims.rhsIdx_val_of_single _ rfl _ _).trans hk) rfl))

theorem pay0_3_apply (v3 : FVec Ideal S8192x64 .f32) (v6 : FVec Ideal S64x32 .bf16) (v9 : FVec Ideal S1x32 .f32)
    (p : Fin 8192) (q : Fin 32) :
    k0_pay3 (F := Ideal) v3 v6 v9 (ix2 p q) = (∑ k : Fin 64, v3 (ix2 p k) * v6 (ix2 k q)) + v9 (ix2 0 q) := by
  unfold k0_pay3
  rw [addf_apply, shapeCast_self, shapeCast_self, shapeCast_self, broadcastTo_1b_ab_apply, mm0_apply]
  rfl

theorem hN0 : cfg0.N = 16 := N_0

def row0 (t : ℕ) (p : Fin 8192) : Fin 131072 :=
  ⟨t % 16 * 8192 + p.val, by have := Nat.mod_lt t (show 0 < 16 by decide); have := p.isLt; omega⟩

-- Where each block lies in its array, at every point of the grid.
theorem idx0 : ∀ t : Fin cfg0.N, (win0_0.index t (0 : Fin 2) = t.val ∧ win0_0.index t (1 : Fin 2) = 0
    ∧ win0_3.index t (0 : Fin 2) = t.val ∧ win0_3.index t (1 : Fin 2) = 0)
    ∧ (∀ a, win0_1.index t a = 0) ∧ (∀ a, win0_2.index t a = 0) ∧ (∀ a, win0_4.index t a = 0) ∧ ∀ a, win0_5.index t a = 0 :=
  (by decide +kernel : ∀ t : Fin grid0.N, _)

-- Local row y of block t is row 8192 t + y of the array.
private theorem row_emb (W : Pipeline.Window sig grid0) (t : Fin cfg0.N) (y : (W.xblock (grid0.coords t)).Idx) (a : Fin W.shape.rank)
    (e : W.index t a = t.val) (hs : W.size a = 8192) : ((W.rect t).emb y a : ℕ) = t.val % 16 * 8192 + y a := by
  have ht : t.val < 16 := hN0 ▸ t.isLt
  rw [W.rect_emb_val, e, hs]
  omega

abbrev inX0 (c : Dev nD) : S131072x64.Idx → EReal := V c main_v15
abbrev inW0 (c : Dev nD) : S64x32.Idx → EReal := V c main_v16
abbrev inB0 (c : Dev nD) : S1x32.Idx → EReal := V c main_v17

def Y0 (c : Dev nD) (r : Fin 131072) (j : Fin 32) : EReal :=
  (∑ k : Fin 64, inX0 V c (ix2 r k) * inW0 V c (ix2 k j)) + inB0 V c (ix2 0 j)

-- A point's rows are the array's rows 8192 t … of the affine map.
theorem y0_apply (c : Dev nD) (t : Fin cfg0.N) (p : Fin 8192) (q : Fin 32) :
    y0 V c t (ix2 p q) = Y0 V c (row0 t.val p) q :=
  (pay0_3_apply _ _ _ p q).trans (congrArg₂ (· + ·)
    (Finset.sum_congr rfl fun k _ => congrArg₂ (· * ·) (congrArg (V c main_v15) (Shape.idx_ext₂ (row_emb win0_0 t _ 0 (idx0 t).1.1 rfl) (win0_0.rect_emb_val_of_index_zero t 1 (idx0 t).1.2.1 _)))
      (congrArg (V c main_v16) (funext fun a => Fin.ext (win0_1.rect_emb_val_of_index_zero t a ((idx0 t).2.1 a) _))))
    (congrArg (V c main_v17) (funext fun a => Fin.ext (win0_2.rect_emb_val_of_index_zero t a ((idx0 t).2.2.1 a) _))))

abbrev outY0 (c : Dev nD) : S131072x32.Idx → EReal := (dat0 V c).arrAt 3 cfg0.N
abbrev outS0 (c : Dev nD) : S1x32.Idx → EReal := (dat0 V c).arrAt 4 cfg0.N
abbrev outQ0 (c : Dev nD) : S1x32.Idx → EReal := (dat0 V c).arrAt 5 cfg0.N

def G0_3 (c : Dev nD) : S131072x32.Idx → EReal := fun i => Y0 V c (i 0) (i 1)

private theorem emb0_3 (t : Fin cfg0.N) (p : Fin 8192) (q : Fin 32) :
    ((cfg0.win 3).blk t).view.emb (ix2 p q) = ix2 (row0 t.val p) q :=
  Shape.idx_ext₂ (row_emb win0_3 t _ 0 (idx0 t).1.2.2.1 rfl) (win0_3.rect_emb_val_of_index_zero t 1 (idx0 t).1.2.2.2 _)

-- The blocks are those of the affine map and cover it: row r lies in block r / 8192.
theorem final0_3 (c : Dev nD) : (dat0 V c).arrAt 3 cfg0.N = G0_3 V c := by
  refine (dat0 V c).arrAt_eq_of_cover 3 _ (fun t _ => funext fun j => ?_) fun i => ?_
  · obtain ⟨p, q, rfl⟩ : ∃ (p : Fin 8192) (q : Fin 32), j = ix2 p q := ⟨j 0, j 1, eq_ix2 j⟩
    show y0 V c t (ix2 p q) = G0_3 V c (((cfg0.win 3).blk t).view.emb (ix2 p q))
    rw [emb0_3, y0_apply]
    rfl
  · have h0 : (i 0).val < 131072 := (i 0).isLt
    have ht : (i 0).val / 8192 < cfg0.N := by rw [hN0]; omega
    refine ⟨⟨_, ht⟩, flush0_3 _, ?_⟩
    exact (congrArg (· ∈ _) ((emb0_3 ⟨_, ht⟩ ⟨(i 0).val % 8192, Nat.mod_lt _ (by decide)⟩ (i 1)).trans
      (Shape.idx_ext₂ (y := i) (by show (i 0).val / 8192 % 16 * 8192 + (i 0).val % 8192 = (i 0).val; omega) rfl))).mp (View.emb_mem_set _ _)

theorem val0_y (c : Dev nD) (r : Fin 131072) (j : Fin 32) :
    outY0 V c (ix2 r j) = (∑ k : Fin 64, inX0 V c (ix2 r k) * inW0 V c (ix2 k j)) + inB0 V c (ix2 0 j) :=
  congrFun (final0_3 V c) (ix2 r j)

theorem sum_blocks0 (f : Fin 131072 → EReal) :
    ∑ t ∈ Finset.range 16, ∑ p : Fin 8192, f (row0 t p) = ∑ r : Fin 131072, f r := by
  rw [Finset.sum_range, ← Fintype.sum_prod_type' (fun (t : Fin 16) (p : Fin 8192) => f (row0 t.val p))]
  refine (Finset.sum_congr rfl fun x _ => ?_).trans (Equiv.sum_comp (finProdFinEquiv (m := 16) (n := 8192)) f)
  refine congrArg f (Fin.ext ?_)
  show x.1.val % 16 * 8192 + x.2.val = x.2.val + 8192 * x.1.val
  have := x.1.isLt
  omega

theorem h15_0 : 15 < cfg0.N := by rw [hN0]; decide

-- One step of a column accumulator: what it held plus the column's sum over the rows of x.
private theorem colstep (x : FVec Ideal S8192x32 .f32) (v : FVec Ideal S1x32 .f32) (q : Fin 32) :
    addf (shapeCast S1x32 v shapeCasts_S1x32_S1x32)
      (shapeCast S1x32 (multiReduction (F := Ideal) .add [0] S32 x 0x00000000#32 reduces_S8192x32_S32 (.inl rfl) rfl) shapeCasts_S32_S1x32) (ix2 0 q)
      = v (ix2 0 q) + ∑ p : Fin 8192, x (ix2 p q) := by
  rw [addf_apply, shapeCast_self, shapeCast_a_1a_apply]
  exact congrArg (v (ix2 0 q) + ·) ((Ideal.multiReduction_add_single x _ _ _ _ _).trans
    (Finset.sum_congr rfl fun p _ => congrArg x (Shape.idx_ext₂ rfl rfl)))

section
variable (g : EReal → EReal) (A : (n : ℕ) → n < cfg0.N → FVec Ideal S1x32 .f32) (c : Dev nD) (q : Fin 32)
  (h0 : ∀ h, A 0 h (ix2 0 q) = 0 + ∑ p : Fin 8192, g (y0 V c ⟨0, h⟩ (ix2 p q)))
  (hs : ∀ n h, A (n + 1) h (ix2 0 q) = A n (Nat.lt_of_succ_lt h) (ix2 0 q) + ∑ p : Fin 8192, g (y0 V c ⟨n + 1, h⟩ (ix2 p q)))
include h0 hs

-- An accumulator that starts from zero and at each point adds the column sums of g over the point's rows holds the sum over the rows so far,
private theorem acc_sum : ∀ n h, A n h (ix2 0 q) = ∑ t ∈ Finset.range (n + 1), ∑ p : Fin 8192, g (Y0 V c (row0 t p) q)
  | 0, h => by
    rw [h0, zero_add, Finset.sum_range_one]
    exact Finset.sum_congr rfl fun p _ => congrArg g (y0_apply V c ⟨0, h⟩ p q)
  | n + 1, h => by
    rw [hs, acc_sum n, Finset.sum_range_succ _ (n + 1)]
    exact congrArg _ (Finset.sum_congr rfl fun p _ => congrArg g (y0_apply V c ⟨n + 1, h⟩ p q))

-- and after the last point the sum of g over all rows of the first output.
private theorem acc_total : A 15 h15_0 (ix2 0 q) = ∑ r : Fin 131072, g (outY0 V c (ix2 r q)) :=
  (acc_sum V g A c q h0 hs 15 h15_0).trans ((sum_blocks0 fun r => g (Y0 V c r q)).trans
    (Finset.sum_congr rfl fun r _ => congrArg g (val0_y V c r q).symm))

end

private theorem final_last (c : Dev nD) (w : Fin cfg0.W) (hf : ∀ t : Fin cfg0.N, (cfg0.win w).flush t = true ↔ t.val % 16 = 15)
    (G : Buf (Elt Ideal) ((cfg0.win w).arr.view.loc (c.tc : Thread nD τ)))
    (hG : (dat0 V c).flushed w ⟨15, h15_0⟩ = ((cfg0.win w).blk ⟨15, h15_0⟩).view.read (Elt Ideal) G)
    (hc : ∀ i, i ∈ ((cfg0.win w).blk ⟨15, h15_0⟩).view.set) : (dat0 V c).arrAt w cfg0.N = G :=
  (dat0 V c).arrAt_eq_of_cover w G (fun t ht => by
    obtain rfl : t = ⟨15, h15_0⟩ := Fin.ext (show t.val = 15 by have := (hf t).mp ht; have : t.val < 16 := hN0 ▸ t.isLt; omega)
    exact hG) fun i => ⟨_, (hf _).mpr rfl, hc i⟩

private theorem emb0_4 (t : Fin cfg0.N) (j : S1x32.Idx) : ((cfg0.win 4).blk t).view.emb j = j :=
  funext fun a => Fin.ext (win0_4.rect_emb_val_of_index_zero t a ((idx0 t).2.2.2.1 a) j)
private theorem emb0_5 (t : Fin cfg0.N) (j : S1x32.Idx) : ((cfg0.win 5).blk t).view.emb j = j :=
  funext fun a => Fin.ext (win0_5.rect_emb_val_of_index_zero t a ((idx0 t).2.2.2.2 a) j)

theorem final0_4 (c : Dev nD) : (dat0 V c).arrAt 4 cfg0.N = (acc0 V c 15 h15_0).1 :=
  final_last V c 4 flush0_4 _ (funext fun j => congrArg (acc0 V c 15 h15_0).1 (emb0_4 _ j).symm)
    fun i => (congrArg (· ∈ _) (emb0_4 _ i)).mp (View.emb_mem_set _ _)
theorem final0_5 (c : Dev nD) : (dat0 V c).arrAt 5 cfg0.N = (acc0 V c 15 h15_0).2 :=
  final_last V c 5 flush0_5 _ (funext fun j => congrArg (acc0 V c 15 h15_0).2 (emb0_5 _ j).symm)
    fun i => (congrArg (· ∈ _) (emb0_5 _ i)).mp (View.emb_mem_set _ _)

theorem val0_sum (c : Dev nD) (j : Fin 32) :
    outS0 V c (ix2 0 j) = ∑ r : Fin 131072, outY0 V c (ix2 r j) :=
  (congrFun (final0_4 V c) (ix2 0 j)).trans (acc_total V (fun y => y) (fun n h => (acc0 V c n h).1) c j
    (fun _ => (colstep _ _ j).trans (congrArg (· + _) Ideal.ofBits_zero_f32)) fun _ _ => colstep _ _ j)

theorem val0_sumsq (c : Dev nD) (j : Fin 32) :
    outQ0 V c (ix2 0 j) = ∑ r : Fin 131072, outY0 V c (ix2 r j) * outY0 V c (ix2 r j) :=
  (congrFun (final0_5 V c) (ix2 0 j)).trans (acc_total V (fun y => y * y) (fun n h => (acc0 V c n h).2) c j
    (fun _ => (colstep _ _ j).trans (congrArg (· + _) Ideal.ofBits_zero_f32)) fun _ _ => colstep _ _ j)

end Cert.KernelIdeal.Fr

end
-- ==== Proof.KI.R1Val.lean ====
import proofs.«120946_j80985903333894_1_alg».proof.Proof.KI.R1Defs
import Idealize.ShloMosaic.Lib.ValueLayout
import Idealize.ShloMosaic.PureOps.Ideal.Laws

noncomputable section

namespace Cert.KernelIdeal.Fr

open Cert.KernelIdeal.Gen Idealize.ShloMosaic
open TcCoe ValueIdx
open Pipeline (Window)

variable (V : (c : Dev nD) → (b : Ref sig .tc) → Buf (Elt Ideal) ((c : Thread nD τ).loc b))

abbrev rowsArr (c : Dev nD) : Vec Ideal S131072x32 .f32 := V c main_v18_0
abbrev meanArr (c : Dev nD) : Vec Ideal S1x32 .f32 := V c main_v20
abbrev varArr (c : Dev nD) : Vec Ideal S1x32 .f32 := V c main_v26
abbrev scaleArr (c : Dev nD) : Vec Ideal S1x32 .f32 := V c main_v27
abbrev shiftArr (c : Dev nD) : Vec Ideal S1x32 .f32 := V c main_v28
abbrev outArr (c : Dev nD) : Vec Ideal S131072x32 .f32 := (dat1 V c).arrAt 5 cfg1.N

private theorem idx1 : ∀ t : Fin cfg1.N, (∀ a : Fin 2, (cfg1.win 0).index t a = (cfg1.win 5).index t a
    ∧ (cfg1.win 1).index t a = 0 ∧ (cfg1.win 2).index t a = 0 ∧ (cfg1.win 3).index t a = 0 ∧ (cfg1.win 4).index t a = 0)
    ∧ (cfg1.win 5).index t 0 = t.val ∧ (cfg1.win 5).index t 1 = 0 :=
  (by decide +kernel : ∀ t : Fin grid1.N, _)

-- A block sits at index times block size: equal indices give equal blocks, and index zero with a full-size block gives the array.
private theorem blk_eq (c : Dev nD) (t : Fin cfg1.N) :
    iblk1 V c 0 t = ((cfg1.win 5).blk t).view.read (Elt Ideal) (rowsArr V c) ∧ iblk1 V c 1 t = meanArr V c
    ∧ iblk1 V c 2 t = varArr V c ∧ iblk1 V c 3 t = scaleArr V c ∧ iblk1 V c 4 t = shiftArr V c := by
  have h := (idx1 t).1
  refine ⟨?_, ?_, ?_, ?_, ?_⟩ <;> refine funext fun y => congrArg (V c _) (funext fun a => Fin.ext ?_)
  · exact (Window.rect_emb_val _ t y a).trans
      ((congrArg (· * _ + _) (h a).1).trans (Window.rect_emb_val _ t y a).symm)
  all_goals exact Window.rect_emb_val_of_index_zero _ t a (by have := h a; omega) y

private def norm1 (c : Dev nD) : Vec Ideal S131072x32 .f32 := fun i =>
  max (scaleArr V c (ix2 0 (i 1)) * (rowsArr V c i - meanArr V c (ix2 0 (i 1)))
      * Ideal.rsqrt (varArr V c (ix2 0 (i 1)) + Ideal.ofBits .f32 0x3727C5AC#32) + shiftArr V c (ix2 0 (i 1))) 0

-- The body is pointwise, and a block's embedding keeps the feature coordinate.
private theorem flushed1_eq (c : Dev nD) (t : Fin cfg1.N) :
    (dat1 V c).flushed 5 t = ((cfg1.win 5).blk t).view.read (Elt Ideal) (norm1 V c) := by
  funext j
  obtain ⟨p, q, rfl⟩ : ∃ (p : Fin 8192) (q : Fin 32), j = ix2 p q := ⟨j 0, j 1, eq_ix2 j⟩
  show out1 V c t (ix2 p q) = norm1 V c (((cfg1.win 5).blk t).view.emb (ix2 p q))
  simp only [out1, k1_pay1, blk_eq V c t, norm1, maximumf_apply, addf_apply, mulf_apply, subf_apply, broadcast_apply, shapeCast_self,
    broadcastTo_1b_ab_apply, Ideal.ofBits_def, Ideal.ofBits_zero_f32]
  rw [show ((cfg1.win 5).blk t).view.emb (ix2 p q) 1 = q from
    Fin.ext ((cfg1.win 5).rect_emb_val_of_index_zero t 1 (idx1 t).2.2 _)]
  rfl

-- Row `r` lies in the block of point `r / 8192`, at row `r % 8192` of it.
private theorem cover1 (i : S131072x32.Idx) :
    ∃ t : Fin cfg1.N, (cfg1.win 5).flush t = true ∧ i ∈ ((cfg1.win 5).blk t).view.set := by
  obtain ⟨t, ht⟩ : ∃ t : Fin cfg1.N, t.val = (i 0).val / 8192 :=
    ⟨⟨(i 0).val / 8192, by have := idx2_lt0 i; rw [show cfg1.N = 16 from N_1]; omega⟩, rfl⟩
  obtain ⟨-, h0, h1⟩ := idx1 t
  rw [← show ((cfg1.win 5).blk t).view.emb (ix2 ⟨(i 0).val % 8192, Nat.mod_lt _ (by decide)⟩ (i 1)) = i from
    Shape.idx_ext₂ (((cfg1.win 5).rect_emb_val t _ 0).trans (by rw [h0, ht]; exact Nat.div_add_mod' _ _))
      ((cfg1.win 5).rect_emb_val_of_index_zero t 1 h1 _)]
  exact ⟨t, flush1_5 t, View.emb_mem_set _ _⟩

theorem val1_out (c : Dev nD) (r : Fin 131072) (j : Fin 32) :
    outArr V c (ix2 r j)
      = max (scaleArr V c (ix2 0 j) * (rowsArr V c (ix2 r j) - meanArr V c (ix2 0 j))
            * Ideal.rsqrt (varArr V c (ix2 0 j) + Ideal.ofBits .f32 0x3727C5AC#32)
          + shiftArr V c (ix2 0 j)) 0 :=
  congrFun ((dat1 V c).arrAt_eq_of_cover 5 (norm1 V c) (fun t _ => flushed1_eq V c t) cover1) (ix2 r j)

end Cert.KernelIdeal.Fr

end
-- ==== Proof.KI.Layer1.lean ====
import proofs.«120946_j80985903333894_1_alg».proof.Proof.KI.Keep
import proofs.«120946_j80985903333894_1_alg».proof.Proof.Model
import proofs.«120946_j80985903333894_1_alg».proof.Proof.KI.R0Val
import proofs.«120946_j80985903333894_1_alg».proof.Proof.KI.R1Val
import Idealize.ShloMosaic.Lib.IdealHost

noncomputable section

namespace Cert.KernelIdeal.Fr

open Cert.KernelIdeal Cert.KernelIdeal.Gen
open Idealize.ShloMosaic Idealize.ShloMosaic.TcCoe Idealize.ShloMosaic.ValueIdx

-- The rows are the affine map of L, so their column sums give its mean and its clamped variance.
theorem layerK_of_reads {K : ℕ} {L x : Fin Spec.NR → Fin K → EReal} {w w' : Fin K → Fin 32 → EReal}
    {b b' g g' t t' s q mean var : Fin 32 → EReal} {y y' o : Fin Spec.NR → Fin 32 → EReal}
    (hL : ∀ r k, x r k = L r k) (hw : ∀ k j, w' k j = w k j) (hb : ∀ j, b' j = b j)
    (hy : ∀ r j, y r j = (∑ k, x r k * w' k j) + b' j)
    (hs : ∀ j, s j = ∑ r, y r j) (hq : ∀ j, q j = ∑ r, y r j * y r j)
    (hy' : ∀ r j, y' r j = y r j)
    (hm : ∀ j, mean j = Ideal.div (s j) Spec.cnt)
    (hv : ∀ j, var j = max (Ideal.div (q j) Spec.cnt - Ideal.div (s j) Spec.cnt * Ideal.div (s j) Spec.cnt) 0)
    (hg : ∀ j, g' j = g j) (ht : ∀ j, t' j = t j)
    (ho : ∀ r j, o r j = max (g' j * (y' r j - mean j) * Ideal.rsqrt (var j + Ideal.ofBits .f32 0x3727C5AC#32) + t' j) 0)
    (r : Fin Spec.NR) (j : Fin 32) : o r j = Spec.layerK L w b g t r j := by
  obtain rfl : y = Spec.affine L w b := by
    funext r j
    rw [hy]
    unfold Spec.affine
    exact congrArg₂ (· + ·) (Finset.sum_congr rfl fun k _ => by rw [hL, hw]) (hb j)
  rw [ho, hg, ht, hy', hm, hv, hq, hs]
  rfl

variable (m : (ℓ : Loc nD τ sig) → Buf (Elt Ideal) ℓ) (c : Dev nD)

theorem rows1_value (r : Fin 131072) (k : Fin 64) :
    W1 m c main_v15 (ix2 r k) = Model.rows1 (m (c.tc.loc main_arg0)) (m (c.tc.loc main_arg2)) (m (c.tc.loc main_arg3)) (m (c.tc.loc main_arg4)) r k := by
  rw [← keepW0 m kept_arg0 c, ← keepW0 m kept_arg2 c, ← keepW0 m kept_arg3 c, ← keepW0 m kept_arg4 c]
  after_results_simp
  delta Model.rows1 Sparse.lx1 Sparse.spmm1 Sparse.wrapCols
  rfl

theorem main_v16_apply (k : Fin 64) (j : Fin 32) : W1 m c main_v16 (ix2 k j) = m (c.tc.loc main_arg5) (ix2 k j) := by
  rw [← keepW0 m kept_arg5 c]
  after_results
  rfl

theorem main_v17_apply (j : Fin 32) : W1 m c main_v17 (ix2 0 j) = m (c.tc.loc main_arg6) (ix1 j) := by
  after_results
  exact (shapeCast_a_1a_apply _ _ _ _).trans (congrFun (keepW0 m kept_arg6 c) _)

theorem main_v18_0_apply (r : Fin 131072) (j : Fin 32) : W3 m c main_v18_0 (ix2 r j) = outY0 (E1 m) c (ix2 r j) :=
  congrFun ((StableHlo.after_of_writes_sub hostOps1 _ hostOps1_writes (by decide : main_v18_0 ∉ hostOps1_W)).trans (W2_arr m c 3)) _

theorem main_v20_apply (j : Fin 32) : W3 m c main_v20 (ix2 0 j) = Ideal.div (outS0 (E1 m) c (ix2 0 j)) Spec.cnt := by
  after_results
  rw [hostDivf_apply, broadcastInDim_scalar_apply, constant_apply,
    show W2 m c (Proc.devRef .tc main_v18_1) = outS0 (E1 m) c from W2_arr m c 4]
  rfl

theorem main_v26_apply (j : Fin 32) :
    W3 m c main_v26 (ix2 0 j)
      = max (Ideal.div (outQ0 (E1 m) c (ix2 0 j)) Spec.cnt
          - Ideal.div (outS0 (E1 m) c (ix2 0 j)) Spec.cnt * Ideal.div (outS0 (E1 m) c (ix2 0 j)) Spec.cnt) 0 := by
  after_results
  rw [maximumf_apply, subf_apply, mulf_apply, hostDivf_apply, hostDivf_apply, broadcastInDim_scalar_apply,
    broadcastInDim_scalar_apply, constant_apply, constant_apply, Ideal.ofBits_zero_f32,
    show W2 m c (Proc.devRef .tc main_v18_1) = outS0 (E1 m) c from W2_arr m c 4,
    show W2 m c (Proc.devRef .tc main_v18_2) = outQ0 (E1 m) c from W2_arr m c 5]
  rfl

theorem main_v27_apply (j : Fin 32) : W3 m c main_v27 (ix2 0 j) = m (c.tc.loc main_arg7) (ix1 j) := by
  after_results
  exact (shapeCast_a_1a_apply _ _ _ _).trans (congrFun (keepW2 m kept_arg7 c) _)

theorem main_v28_apply (j : Fin 32) : W3 m c main_v28 (ix2 0 j) = m (c.tc.loc main_arg8) (ix1 j) := by
  after_results
  exact (shapeCast_a_1a_apply _ _ _ _).trans (congrFun (keepW2 m kept_arg8 c) _)

theorem layer1_value (r : Fin 131072) (j : Fin 32) :
    W4 m c main_v29 (ix2 r j)
      = Spec.layerK (Model.rows1 (m (c.tc.loc main_arg0)) (m (c.tc.loc main_arg2)) (m (c.tc.loc main_arg3)) (m (c.tc.loc main_arg4)))
          (fun k j => m (c.tc.loc main_arg5) (ix2 k j)) (fun j => m (c.tc.loc main_arg6) (ix1 j)) (fun j => m (c.tc.loc main_arg7) (ix1 j))
          (fun j => m (c.tc.loc main_arg8) (ix1 j)) r j :=
  (congrFun (W4_arr m c 5) _).trans (layerK_of_reads (rows1_value m c) (main_v16_apply m c) (main_v17_apply m c)
    (val0_y (E1 m) c) (val0_sum (E1 m) c) (val0_sumsq (E1 m) c) (main_v18_0_apply m c) (main_v20_apply m c)
    (main_v26_apply m c) (main_v27_apply m c) (main_v28_apply m c) (val1_out (E3 m) c) r j)

end Cert.KernelIdeal.Fr

end
-- ==== Proof.KI.R2Val.lean ====
import proofs.«120946_j80985903333894_1_alg».proof.Proof.KI.R2Defs
import Idealize.ShloMosaic.Lib.ValueLayout
import Idealize.ShloMosaic.PureOps.Ideal.Laws

noncomputable section

namespace Cert.KernelIdeal.Fr

open Cert.KernelIdeal.Gen
open Idealize.ShloMosaic Idealize.ShloMosaic.TcCoe Idealize.ShloMosaic.ValueIdx

variable (V : (c : Dev nD) → (b : Ref sig .tc) → Buf (Elt Ideal) ((c : Thread nD τ).loc b))

-- The product into the zero accumulator is the sum over the contracted coordinate of the entries' products.
theorem mm2_apply (x : FVec Ideal S8192x32 .bf16) (w : FVec Ideal S32x32 .bf16) (p : Fin 8192) (q : Fin 32) :
    matmul dot_S8192x32_S32x32_S8192x32_1_0_0_1_n_n none x w (constant (F := Ideal) S8192x32 .f32 0x00000000#32) (ix2 p q)
      = ∑ k : Fin 32, x (ix2 p k) * w (ix2 k q) := by
  simp only [matmul]
  rw [Ideal.matmul_constant_zero_apply, ← Equiv.sum_comp (contrEquiv1 _ 32 rfl rfl).symm]
  refine Finset.sum_congr rfl fun k _ => ?_
  have hk := contrEquiv1_symm_val dot_S8192x32_S32x32_S8192x32_1_0_0_1_n_n 32 rfl rfl k
  exact congrArg₂ (· * ·)
    (congrArg x (Shape.idx_ext₂ rfl ((DotDims.lhsIdx_val_of_single _ rfl _ _).trans hk)))
    (congrArg w (Shape.idx_ext₂ ((DotDims.rhsIdx_val_of_single _ rfl _ _).trans hk) rfl))

theorem pay2_3_apply (v3 : FVec Ideal S8192x32 .f32) (v6 : FVec Ideal S32x32 .bf16) (v9 : FVec Ideal S1x32 .f32)
    (p : Fin 8192) (q : Fin 32) :
    k2_pay3 (F := Ideal) v3 v6 v9 (ix2 p q) = (∑ k : Fin 32, v3 (ix2 p k) * v6 (ix2 k q)) + v9 (ix2 0 q) := by
  unfold k2_pay3
  rw [addf_apply, shapeCast_self, shapeCast_self, shapeCast_self, broadcastTo_1b_ab_apply, mm2_apply]
  rfl

theorem hN2 : cfg2.N = 16 := N_2

def row2 (t : ℕ) (p : Fin 8192) : Fin 131072 :=
  ⟨t % 16 * 8192 + p.val, by have := Nat.mod_lt t (show 0 < 16 by decide); have := p.isLt; omega⟩

-- Where each block lies in its array, at every point of the grid.
theorem idx2 : ∀ t : Fin cfg2.N, (win2_0.index t (0 : Fin 2) = t.val ∧ win2_0.index t (1 : Fin 2) = 0
    ∧ win2_3.index t (0 : Fin 2) = t.val ∧ win2_3.index t (1 : Fin 2) = 0)
    ∧ (∀ a, win2_1.index t a = 0) ∧ (∀ a, win2_2.index t a = 0) ∧ (∀ a, win2_4.index t a = 0) ∧ ∀ a, win2_5.index t a = 0 :=
  (by decide +kernel : ∀ t : Fin grid2.N, _)

-- Local row y of block t is row 8192 t + y of the array.
private theorem row_emb (W : Pipeline.Window sig grid2) (t : Fin cfg2.N) (y : (W.xblock (grid2.coords t)).Idx) (a : Fin W.shape.rank)
    (e : W.index t a = t.val) (hs : W.size a = 8192) : ((W.rect t).emb y a : ℕ) = t.val % 16 * 8192 + y a := by
  have ht : t.val < 16 := hN2 ▸ t.isLt
  rw [W.rect_emb_val, e, hs]
  omega

abbrev inX2 (c : Dev nD) : S131072x32.Idx → EReal := V c main_v44
abbrev inW2 (c : Dev nD) : S32x32.Idx → EReal := V c main_v45
abbrev inB2 (c : Dev nD) : S1x32.Idx → EReal := V c main_v46

def Y2 (c : Dev nD) (r : Fin 131072) (j : Fin 32) : EReal :=
  (∑ k : Fin 32, inX2 V c (ix2 r k) * inW2 V c (ix2 k j)) + inB2 V c (ix2 0 j)

-- A point's rows are the array's rows 8192 t … of the affine map.
theorem y2_apply (c : Dev nD) (t : Fin cfg2.N) (p : Fin 8192) (q : Fin 32) :
    y2 V c t (ix2 p q) = Y2 V c (row2 t.val p) q :=
  (pay2_3_apply _ _ _ p q).trans (congrArg₂ (· + ·)
    (Finset.sum_congr rfl fun k _ => congrArg₂ (· * ·) (congrArg (V c main_v44) (Shape.idx_ext₂ (row_emb win2_0 t _ 0 (idx2 t).1.1 rfl) (win2_0.rect_emb_val_of_index_zero t 1 (idx2 t).1.2.1 _)))
      (congrArg (V c main_v45) (funext fun a => Fin.ext (win2_1.rect_emb_val_of_index_zero t a ((idx2 t).2.1 a) _))))
    (congrArg (V c main_v46) (funext fun a => Fin.ext (win2_2.rect_emb_val_of_index_zero t a ((idx2 t).2.2.1 a) _))))

abbrev outY2 (c : Dev nD) : S131072x32.Idx → EReal := (dat2 V c).arrAt 3 cfg2.N
abbrev outS2 (c : Dev nD) : S1x32.Idx → EReal := (dat2 V c).arrAt 4 cfg2.N
abbrev outQ2 (c : Dev nD) : S1x32.Idx → EReal := (dat2 V c).arrAt 5 cfg2.N

def G2_3 (c : Dev nD) : S131072x32.Idx → EReal := fun i => Y2 V c (i 0) (i 1)

private theorem emb0_3 (t : Fin cfg2.N) (p : Fin 8192) (q : Fin 32) :
    ((cfg2.win 3).blk t).view.emb (ix2 p q) = ix2 (row2 t.val p) q :=
  Shape.idx_ext₂ (row_emb win2_3 t _ 0 (idx2 t).1.2.2.1 rfl) (win2_3.rect_emb_val_of_index_zero t 1 (idx2 t).1.2.2.2 _)

-- The blocks are those of the affine map and cover it: row r lies in block r / 8192.
theorem final2_3 (c : Dev nD) : (dat2 V c).arrAt 3 cfg2.N = G2_3 V c := by
  refine (dat2 V c).arrAt_eq_of_cover 3 _ (fun t _ => funext fun j => ?_) fun i => ?_
  · obtain ⟨p, q, rfl⟩ : ∃ (p : Fin 8192) (q : Fin 32), j = ix2 p q := ⟨j 0, j 1, eq_ix2 j⟩
    show y2 V c t (ix2 p q) = G2_3 V c (((cfg2.win 3).blk t).view.emb (ix2 p q))
    rw [emb0_3, y2_apply]
    rfl
  · have h0 : (i 0).val < 131072 := (i 0).isLt
    have ht : (i 0).val / 8192 < cfg2.N := by rw [hN2]; omega
    refine ⟨⟨_, ht⟩, flush2_3 _, ?_⟩
    exact (congrArg (· ∈ _) ((emb0_3 ⟨_, ht⟩ ⟨(i 0).val % 8192, Nat.mod_lt _ (by decide)⟩ (i 1)).trans
      (Shape.idx_ext₂ (y := i) (by show (i 0).val / 8192 % 16 * 8192 + (i 0).val % 8192 = (i 0).val; omega) rfl))).mp (View.emb_mem_set _ _)

theorem val2_y (c : Dev nD) (r : Fin 131072) (j : Fin 32) :
    outY2 V c (ix2 r j) = (∑ k : Fin 32, inX2 V c (ix2 r k) * inW2 V c (ix2 k j)) + inB2 V c (ix2 0 j) :=
  congrFun (final2_3 V c) (ix2 r j)

theorem sum_blocks2 (f : Fin 131072 → EReal) :
    ∑ t ∈ Finset.range 16, ∑ p : Fin 8192, f (row2 t p) = ∑ r : Fin 131072, f r := by
  rw [Finset.sum_range, ← Fintype.sum_prod_type' (fun (t : Fin 16) (p : Fin 8192) => f (row2 t.val p))]
  refine (Finset.sum_congr rfl fun x _ => ?_).trans (Equiv.sum_comp (finProdFinEquiv (m := 16) (n := 8192)) f)
  refine congrArg f (Fin.ext ?_)
  show x.1.val % 16 * 8192 + x.2.val = x.2.val + 8192 * x.1.val
  have := x.1.isLt
  omega

theorem h15_2 : 15 < cfg2.N := by rw [hN2]; decide

-- One step of a column accumulator: what it held plus the column's sum over the rows of x.
private theorem colstep (x : FVec Ideal S8192x32 .f32) (v : FVec Ideal S1x32 .f32) (q : Fin 32) :
    addf (shapeCast S1x32 v shapeCasts_S1x32_S1x32)
      (shapeCast S1x32 (multiReduction (F := Ideal) .add [0] S32 x 0x00000000#32 reduces_S8192x32_S32 (.inl rfl) rfl) shapeCasts_S32_S1x32) (ix2 0 q)
      = v (ix2 0 q) + ∑ p : Fin 8192, x (ix2 p q) := by
  rw [addf_apply, shapeCast_self, shapeCast_a_1a_apply]
  exact congrArg (v (ix2 0 q) + ·) ((Ideal.multiReduction_add_single x _ _ _ _ _).trans
    (Finset.sum_congr rfl fun p _ => congrArg x (Shape.idx_ext₂ rfl rfl)))

section
variable (g : EReal → EReal) (A : (n : ℕ) → n < cfg2.N → FVec Ideal S1x32 .f32) (c : Dev nD) (q : Fin 32)
  (h0 : ∀ h, A 0 h (ix2 0 q) = 0 + ∑ p : Fin 8192, g (y2 V c ⟨0, h⟩ (ix2 p q)))
  (hs : ∀ n h, A (n + 1) h (ix2 0 q) = A n (Nat.lt_of_succ_lt h) (ix2 0 q) + ∑ p : Fin 8192, g (y2 V c ⟨n + 1, h⟩ (ix2 p q)))
include h0 hs

-- An accumulator that starts from zero and at each point adds the column sums of g over the point's rows holds the sum over the rows so far,
private theorem acc_sum : ∀ n h, A n h (ix2 0 q) = ∑ t ∈ Finset.range (n + 1), ∑ p : Fin 8192, g (Y2 V c (row2 t p) q)
  | 0, h => by
    rw [h0, zero_add, Finset.sum_range_one]
    exact Finset.sum_congr rfl fun p _ => congrArg g (y2_apply V c ⟨0, h⟩ p q)
  | n + 1, h => by
    rw [hs, acc_sum n, Finset.sum_range_succ _ (n + 1)]
    exact congrArg _ (Finset.sum_congr rfl fun p _ => congrArg g (y2_apply V c ⟨n + 1, h⟩ p q))

-- and after the last point the sum of g over all rows of the first output.
private theorem acc_total : A 15 h15_2 (ix2 0 q) = ∑ r : Fin 131072, g (outY2 V c (ix2 r q)) :=
  (acc_sum V g A c q h0 hs 15 h15_2).trans ((sum_blocks2 fun r => g (Y2 V c r q)).trans
    (Finset.sum_congr rfl fun r _ => congrArg g (val2_y V c r q).symm))

end

private theorem final_last (c : Dev nD) (w : Fin cfg2.W) (hf : ∀ t : Fin cfg2.N, (cfg2.win w).flush t = true ↔ t.val % 16 = 15)
    (G : Buf (Elt Ideal) ((cfg2.win w).arr.view.loc (c.tc : Thread nD τ)))
    (hG : (dat2 V c).flushed w ⟨15, h15_2⟩ = ((cfg2.win w).blk ⟨15, h15_2⟩).view.read (Elt Ideal) G)
    (hc : ∀ i, i ∈ ((cfg2.win w).blk ⟨15, h15_2⟩).view.set) : (dat2 V c).arrAt w cfg2.N = G :=
  (dat2 V c).arrAt_eq_of_cover w G (fun t ht => by
    obtain rfl : t = ⟨15, h15_2⟩ := Fin.ext (show t.val = 15 by have := (hf t).mp ht; have : t.val < 16 := hN2 ▸ t.isLt; omega)
    exact hG) fun i => ⟨_, (hf _).mpr rfl, hc i⟩

private theorem emb0_4 (t : Fin cfg2.N) (j : S1x32.Idx) : ((cfg2.win 4).blk t).view.emb j = j :=
  funext fun a => Fin.ext (win2_4.rect_emb_val_of_index_zero t a ((idx2 t).2.2.2.1 a) j)
private theorem emb0_5 (t : Fin cfg2.N) (j : S1x32.Idx) : ((cfg2.win 5).blk t).view.emb j = j :=
  funext fun a => Fin.ext (win2_5.rect_emb_val_of_index_zero t a ((idx2 t).2.2.2.2 a) j)

theorem final2_4 (c : Dev nD) : (dat2 V c).arrAt 4 cfg2.N = (acc2 V c 15 h15_2).1 :=
  final_last V c 4 flush2_4 _ (funext fun j => congrArg (acc2 V c 15 h15_2).1 (emb0_4 _ j).symm)
    fun i => (congrArg (· ∈ _) (emb0_4 _ i)).mp (View.emb_mem_set _ _)
theorem final2_5 (c : Dev nD) : (dat2 V c).arrAt 5 cfg2.N = (acc2 V c 15 h15_2).2 :=
  final_last V c 5 flush2_5 _ (funext fun j => congrArg (acc2 V c 15 h15_2).2 (emb0_5 _ j).symm)
    fun i => (congrArg (· ∈ _) (emb0_5 _ i)).mp (View.emb_mem_set _ _)

theorem val2_sum (c : Dev nD) (j : Fin 32) :
    outS2 V c (ix2 0 j) = ∑ r : Fin 131072, outY2 V c (ix2 r j) :=
  (congrFun (final2_4 V c) (ix2 0 j)).trans (acc_total V (fun y => y) (fun n h => (acc2 V c n h).1) c j
    (fun _ => (colstep _ _ j).trans (congrArg (· + _) Ideal.ofBits_zero_f32)) fun _ _ => colstep _ _ j)

theorem val2_sumsq (c : Dev nD) (j : Fin 32) :
    outQ2 V c (ix2 0 j) = ∑ r : Fin 131072, outY2 V c (ix2 r j) * outY2 V c (ix2 r j) :=
  (congrFun (final2_5 V c) (ix2 0 j)).trans (acc_total V (fun y => y * y) (fun n h => (acc2 V c n h).2) c j
    (fun _ => (colstep _ _ j).trans (congrArg (· + _) Ideal.ofBits_zero_f32)) fun _ _ => colstep _ _ j)

end Cert.KernelIdeal.Fr

end
-- ==== Proof.KI.R3Val.lean ====
import proofs.«120946_j80985903333894_1_alg».proof.Proof.KI.R3Defs
import Idealize.ShloMosaic.Lib.ValueLayout
import Idealize.ShloMosaic.PureOps.Ideal.Laws

noncomputable section

namespace Cert.KernelIdeal.Fr

open Cert.KernelIdeal.Gen Idealize.ShloMosaic
open TcCoe ValueIdx
open Pipeline (Window)

variable (V : (c : Dev nD) → (b : Ref sig .tc) → Buf (Elt Ideal) ((c : Thread nD τ).loc b))

abbrev rowsArr3 (c : Dev nD) : Vec Ideal S131072x32 .f32 := V c main_v47_0
abbrev meanArr3 (c : Dev nD) : Vec Ideal S1x32 .f32 := V c main_v49
abbrev varArr3 (c : Dev nD) : Vec Ideal S1x32 .f32 := V c main_v55
abbrev scaleArr3 (c : Dev nD) : Vec Ideal S1x32 .f32 := V c main_v56
abbrev shiftArr3 (c : Dev nD) : Vec Ideal S1x32 .f32 := V c main_v57
abbrev outArr3 (c : Dev nD) : Vec Ideal S131072x32 .f32 := (dat3 V c).arrAt 5 cfg3.N

private theorem idx3 : ∀ t : Fin cfg3.N, (∀ a : Fin 2, (cfg3.win 0).index t a = (cfg3.win 5).index t a
    ∧ (cfg3.win 1).index t a = 0 ∧ (cfg3.win 2).index t a = 0 ∧ (cfg3.win 3).index t a = 0 ∧ (cfg3.win 4).index t a = 0)
    ∧ (cfg3.win 5).index t 0 = t.val ∧ (cfg3.win 5).index t 1 = 0 :=
  (by decide +kernel : ∀ t : Fin grid3.N, _)

-- A block sits at index times block size: equal indices give equal blocks, and index zero with a full-size block gives the array.
private theorem blk_eq (c : Dev nD) (t : Fin cfg3.N) :
    iblk3 V c 0 t = ((cfg3.win 5).blk t).view.read (Elt Ideal) (rowsArr3 V c) ∧ iblk3 V c 1 t = meanArr3 V c
    ∧ iblk3 V c 2 t = varArr3 V c ∧ iblk3 V c 3 t = scaleArr3 V c ∧ iblk3 V c 4 t = shiftArr3 V c := by
  have h := (idx3 t).1
  refine ⟨?_, ?_, ?_, ?_, ?_⟩ <;> refine funext fun y => congrArg (V c _) (funext fun a => Fin.ext ?_)
  · exact (Window.rect_emb_val _ t y a).trans
      ((congrArg (· * _ + _) (h a).1).trans (Window.rect_emb_val _ t y a).symm)
  all_goals exact Window.rect_emb_val_of_index_zero _ t a (by have := h a; omega) y

private def norm3 (c : Dev nD) : Vec Ideal S131072x32 .f32 := fun i =>
  max (scaleArr3 V c (ix2 0 (i 1)) * (rowsArr3 V c i - meanArr3 V c (ix2 0 (i 1)))
      * Ideal.rsqrt (varArr3 V c (ix2 0 (i 1)) + Ideal.ofBits .f32 0x3727C5AC#32) + shiftArr3 V c (ix2 0 (i 1))) 0

-- The body is pointwise, and a block's embedding keeps the feature coordinate.
private theorem flushed3_eq (c : Dev nD) (t : Fin cfg3.N) :
    (dat3 V c).flushed 5 t = ((cfg3.win 5).blk t).view.read (Elt Ideal) (norm3 V c) := by
  funext j
  obtain ⟨p, q, rfl⟩ : ∃ (p : Fin 8192) (q : Fin 32), j = ix2 p q := ⟨j 0, j 1, eq_ix2 j⟩
  show out3 V c t (ix2 p q) = norm3 V c (((cfg3.win 5).blk t).view.emb (ix2 p q))
  simp only [out3, k3_pay1, blk_eq V c t, norm3, maximumf_apply, addf_apply, mulf_apply, subf_apply, broadcast_apply, shapeCast_self,
    broadcastTo_1b_ab_apply, Ideal.ofBits_def, Ideal.ofBits_zero_f32]
  rw [show ((cfg3.win 5).blk t).view.emb (ix2 p q) 1 = q from
    Fin.ext ((cfg3.win 5).rect_emb_val_of_index_zero t 1 (idx3 t).2.2 _)]
  rfl

-- Row `r` lies in the block of point `r / 8192`, at row `r % 8192` of it.
private theorem cover3 (i : S131072x32.Idx) :
    ∃ t : Fin cfg3.N, (cfg3.win 5).flush t = true ∧ i ∈ ((cfg3.win 5).blk t).view.set := by
  obtain ⟨t, ht⟩ : ∃ t : Fin cfg3.N, t.val = (i 0).val / 8192 :=
    ⟨⟨(i 0).val / 8192, by have := idx2_lt0 i; rw [show cfg3.N = 16 from N_3]; omega⟩, rfl⟩
  obtain ⟨-, h0, h1⟩ := idx3 t
  rw [← show ((cfg3.win 5).blk t).view.emb (ix2 ⟨(i 0).val % 8192, Nat.mod_lt _ (by decide)⟩ (i 1)) = i from
    Shape.idx_ext₂ (((cfg3.win 5).rect_emb_val t _ 0).trans (by rw [h0, ht]; exact Nat.div_add_mod' _ _))
      ((cfg3.win 5).rect_emb_val_of_index_zero t 1 h1 _)]
  exact ⟨t, flush3_5 t, View.emb_mem_set _ _⟩

theorem val3_out (c : Dev nD) (r : Fin 131072) (j : Fin 32) :
    outArr3 V c (ix2 r j)
      = max (scaleArr3 V c (ix2 0 j) * (rowsArr3 V c (ix2 r j) - meanArr3 V c (ix2 0 j))
            * Ideal.rsqrt (varArr3 V c (ix2 0 j) + Ideal.ofBits .f32 0x3727C5AC#32)
          + shiftArr3 V c (ix2 0 j)) 0 :=
  congrFun ((dat3 V c).arrAt_eq_of_cover 5 (norm3 V c) (fun t _ => flushed3_eq V c t) cover3) (ix2 r j)

end Cert.KernelIdeal.Fr

end
-- ==== Proof.KI.Layer2.lean ====
import proofs.«120946_j80985903333894_1_alg».proof.Proof.KI.Layer1
import proofs.«120946_j80985903333894_1_alg».proof.Proof.KI.R2Val
import proofs.«120946_j80985903333894_1_alg».proof.Proof.KI.R3Val

noncomputable section

namespace Cert.KernelIdeal.Fr

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

theorem main_v45_apply (k : Fin 32) (j : Fin 32) : W5 m c main_v45 (ix2 k j) = m (c.tc.loc main_arg9) (ix2 k j) := by
  rw [← keepW4 m kept_arg9 c]
  after_results
  rfl

theorem main_v46_apply (j : Fin 32) : W5 m c main_v46 (ix2 0 j) = m (c.tc.loc main_arg10) (ix1 j) := by
  after_results
  exact (shapeCast_a_1a_apply _ _ _ _).trans (congrFun (keepW4 m kept_arg10 c) _)

theorem main_v47_0_apply (r : Fin 131072) (j : Fin 32) : W7 m c main_v47_0 (ix2 r j) = outY2 (E5 m) c (ix2 r j) :=
  congrFun ((StableHlo.after_of_writes_sub hostOps3 _ hostOps3_writes (by decide : main_v47_0 ∉ hostOps3_W)).trans (W6_arr m c 3)) _

theorem main_v49_apply (j : Fin 32) : W7 m c main_v49 (ix2 0 j) = Ideal.div (outS2 (E5 m) c (ix2 0 j)) Spec.cnt := by
  after_results
  rw [hostDivf_apply, broadcastInDim_scalar_apply, constant_apply,
    show W6 m c (Proc.devRef .tc main_v47_1) = outS2 (E5 m) c from W6_arr m c 4]
  rfl

theorem main_v55_apply (j : Fin 32) :
    W7 m c main_v55 (ix2 0 j)
      = max (Ideal.div (outQ2 (E5 m) c (ix2 0 j)) Spec.cnt
          - Ideal.div (outS2 (E5 m) c (ix2 0 j)) Spec.cnt * Ideal.div (outS2 (E5 m) c (ix2 0 j)) Spec.cnt) 0 := by
  after_results
  rw [maximumf_apply, subf_apply, mulf_apply, hostDivf_apply, hostDivf_apply, broadcastInDim_scalar_apply,
    broadcastInDim_scalar_apply, constant_apply, constant_apply, Ideal.ofBits_zero_f32,
    show W6 m c (Proc.devRef .tc main_v47_1) = outS2 (E5 m) c from W6_arr m c 4,
    show W6 m c (Proc.devRef .tc main_v47_2) = outQ2 (E5 m) c from W6_arr m c 5]
  rfl

theorem main_v56_apply (j : Fin 32) : W7 m c main_v56 (ix2 0 j) = m (c.tc.loc main_arg11) (ix1 j) := by
  after_results
  exact (shapeCast_a_1a_apply _ _ _ _).trans (congrFun (keepW6 m kept_arg11 c) _)

theorem main_v57_apply (j : Fin 32) : W7 m c main_v57 (ix2 0 j) = m (c.tc.loc main_arg12) (ix1 j) := by
  after_results
  exact (shapeCast_a_1a_apply _ _ _ _).trans (congrFun (keepW6 m kept_arg12 c) _)

theorem layer2_value_of {L : Fin Spec.NR → Fin 32 → EReal}
    (hL : ∀ (r : Fin 131072) (k : Fin 32), W5 m c main_v44 (ix2 r k) = L r k) (r : Fin 131072) (j : Fin 32) :
    W8 m c main_v58 (ix2 r j)
      = Spec.layerK L (fun k j => m (c.tc.loc main_arg9) (ix2 k j)) (fun j => m (c.tc.loc main_arg10) (ix1 j)) (fun j => m (c.tc.loc main_arg11) (ix1 j))
          (fun j => m (c.tc.loc main_arg12) (ix1 j)) r j :=
  (congrFun (W8_arr m c 5) _).trans (layerK_of_reads hL (main_v45_apply m c) (main_v46_apply m c)
    (val2_y (E5 m) c) (val2_sum (E5 m) c) (val2_sumsq (E5 m) c) (main_v47_0_apply m c) (main_v49_apply m c)
    (main_v55_apply m c) (main_v56_apply m c) (main_v57_apply m c) (val3_out (E7 m) c) r j)

end Cert.KernelIdeal.Fr

end
-- ==== Proof.KI.MidVal.lean ====
import proofs.«120946_j80985903333894_1_alg».proof.Proof.KI.Fold
import proofs.«120946_j80985903333894_1_alg».proof.Proof.Model

noncomputable section

namespace Cert.KernelIdeal.Fr

open Idealize.ShloMosaic
open TcCoe ValueIdx

variable (m : (ℓ : Loc nD τ sig) → Buf (Elt Ideal) ℓ) (c : Dev nD)

namespace Mid

abbrev er : (⟨S131072, .i32⟩ : BufTy).Contents (Elt Ideal) := m ((c : Thread nD τ).loc main_arg2)
abbrev ec : (⟨S131072, .i32⟩ : BufTy).Contents (Elt Ideal) := m ((c : Thread nD τ).loc main_arg3)
abbrev ev : (⟨S131072, .f32⟩ : BufTy).Contents (Elt Ideal) := m ((c : Thread nD τ).loc main_arg4)
abbrev o1Arr : Vec Ideal S131072x32 .f32 := W4 m c main_v29
abbrev l2Arr : Vec Ideal S131072x32 .f32 := W5 m c main_v44

end Mid

open Mid

-- Operation by operation, the program between the two layers is the specification's second sparse product.
theorem mid_value
    (k2 : W4 m c (Proc.devRef .tc main_arg2) = m ((c : Thread nD τ).loc main_arg2))
    (k3 : W4 m c (Proc.devRef .tc main_arg3) = m ((c : Thread nD τ).loc main_arg3))
    (k4 : W4 m c (Proc.devRef .tc main_arg4) = m ((c : Thread nD τ).loc main_arg4))
    (O : Fin Spec.NR → Fin 32 → EReal) (hO : ∀ (r : Fin 131072) (j : Fin 32), o1Arr m c (ix2 r j) = O r j)
    (r : Fin 131072) (k : Fin 32) :
    l2Arr m c (ix2 r k) = Model.rows2 (er m c) (ec m c) (ev m c) O r k := by
  unfold l2Arr W5
  after_results_simp
  rw [k2, k3, k4, Model.rows2, show Model.arr32 O = o1Arr m c from funext fun i => by rw [eq_ix2 i]; exact (hO _ _).symm]
  rfl

end Cert.KernelIdeal.Fr

end
-- ==== Proof.KI.R4Val.lean ====
import proofs.«120946_j80985903333894_1_alg».proof.Proof.KI.R4Defs
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

-- An [m, K] by [K, n] product into the zero accumulator is, entry by entry, the sum over the one contracted axis.
private theorem mm_apply {m K n : ℕ} {φ₁ φ₂ : FTy} (d : DotDims ⟨2, ![m, K]⟩ ⟨2, ![K, n]⟩ ⟨2, ![m, n]⟩)
    (hr : d.contr.rank = 1) (hs : d.contr.size ⟨0, by omega⟩ = K) (hl : d.lhsContracting = [1]) (hc : d.rhsContracting = [0])
    (h0 : ∀ i q, d.lhsIdx i q 0 = i 0) (h1 : ∀ i q, d.rhsIdx i q 1 = i 1)
    (x : FVec Ideal ⟨2, ![m, K]⟩ φ₁) (w : FVec Ideal ⟨2, ![K, n]⟩ φ₂) (g : Fin m) (j : Fin n) :
    FloatOps.matmul d none x w (constant (F := Ideal) ⟨2, ![m, n]⟩ .f32 0x00000000#32) (ix2 g j)
      = ∑ q : Fin K, x (ix2 g q) * w (ix2 q j) := by
  rw [Ideal.matmul_constant_zero_apply, ← Equiv.sum_comp (contrEquiv1 d K hr hs).symm]
  refine Finset.sum_congr rfl fun k _ => ?_
  have hk := contrEquiv1_symm_val d K hr hs k
  rw [show d.lhsIdx (ix2 g j) ((contrEquiv1 d K hr hs).symm k) = ix2 g k from funext fun a => match a with
      | ⟨0, _⟩ => h0 _ _
      | ⟨1, _⟩ => Fin.ext ((d.lhsIdx_val_of_single hl _ _).trans hk),
    show d.rhsIdx (ix2 g j) ((contrEquiv1 d K hr hs).symm k) = ix2 k j from funext fun a => match a with
      | ⟨0, _⟩ => Fin.ext ((d.rhsIdx_val_of_single hc _ _).trans hk)
      | ⟨1, _⟩ => h1 _ _]

theorem pay4_1_apply (j : S16x512.Idx) : k4_pay1 (F := Ideal) j = 0 := by
  unfold k4_pay1
  rw [shapeCast_self]
  exact Ideal.ofBits_zero_f32

def gpos (t : ℕ) (q : Fin 4096) : Fin 266240 := ⟨(t * 4096 + q.val) % 266240, Nat.mod_lt _ (by decide)⟩

theorem idx_facts4 : ∀ t : Fin cfg4.N,
    (win4_0.index t (0 : Fin 2) = 0 ∧ win4_0.index t (1 : Fin 2) = t.val ∧ win4_1.index t (0 : Fin 2) = t.val ∧ win4_1.index t (1 : Fin 2) = 0)
    ∧ ∀ a : Fin 2, win4_2.index t a = 0 ∧ win4_3.index t a = 0 ∧ win4_4.index t a = 0 ∧ win4_5.index t a = 0 :=
  (by decide +kernel : ∀ t : Fin grid4.N, _)

abbrev x4 (c : Dev nD) (g : Fin 16) (k : Fin 266240) : EReal := V c main_v65 (ix2 g k)
abbrev w4 (c : Dev nD) (k : Fin 266240) (n : Fin 512) : EReal := V c main_v66 (ix2 k n)
abbrev b4 (c : Dev nD) (n : Fin 512) : EReal := V c main_v67 (ix2 (0 : Fin 1) n)
abbrev u4 (c : Dev nD) (n : Fin 512) (o : Fin 2) : EReal := V c main_v68 (ix2 n o)
abbrev d4 (c : Dev nD) (o : Fin 2) : EReal := V c main_v69 (ix2 (0 : Fin 1) o)

theorem blk4_0_apply (c : Dev nD) (t : Fin cfg4.N) (g : Fin 16) (q : Fin 4096) :
    (iblk4 V c 0 t : Vec Ideal S16x4096 .bf16) (ix2 g q) = x4 V c g (gpos t.val q) := by
  refine congrArg (V c main_v65) (funext fun a => Fin.ext ?_)
  obtain ⟨⟨e0, e1, -⟩, -⟩ := idx_facts4 t
  have hN : cfg4.N = 65 := N_4; have := t.isLt
  match a with
  | ⟨0, _⟩ => show win4_0.index t (0 : Fin 2) * 16 + 1 * g.val = g.val; omega
  | ⟨1, _⟩ => show win4_0.index t (1 : Fin 2) * 4096 + 1 * q.val = (t.val * 4096 + q.val) % 266240; omega

theorem blk4_1_apply (c : Dev nD) (t : Fin cfg4.N) (q : Fin 4096) (n : Fin 512) :
    (iblk4 V c 1 t : Vec Ideal S4096x512 .bf16) (ix2 q n) = w4 V c (gpos t.val q) n := by
  refine congrArg (V c main_v66) (funext fun a => Fin.ext ?_)
  obtain ⟨⟨-, -, e0, e1⟩, -⟩ := idx_facts4 t
  have hN : cfg4.N = 65 := N_4; have := t.isLt
  match a with
  | ⟨0, _⟩ => show win4_1.index t (0 : Fin 2) * 4096 + 1 * q.val = (t.val * 4096 + q.val) % 266240; omega
  | ⟨1, _⟩ => show win4_1.index t (1 : Fin 2) * 512 + 1 * n.val = n.val; omega

theorem blk4_2_apply (c : Dev nD) (t : Fin cfg4.N) (n : Fin 512) :
    (iblk4 V c 2 t : Vec Ideal S1x512 .f32) (ix2 (0 : Fin 1) n) = b4 V c n :=
  congrArg (V c main_v67) (funext fun a => Fin.ext (win4_2.rect_emb_val_of_index_zero t a ((idx_facts4 t).2 a).1 _))

theorem blk4_3_apply (c : Dev nD) (t : Fin cfg4.N) (n : Fin 512) (o : Fin 2) :
    (iblk4 V c 3 t : Vec Ideal S512x2 .bf16) (ix2 n o) = u4 V c n o :=
  congrArg (V c main_v68) (funext fun a => Fin.ext (win4_3.rect_emb_val_of_index_zero t a ((idx_facts4 t).2 a).2.1 _))

theorem blk4_4_apply (c : Dev nD) (t : Fin cfg4.N) (o : Fin 2) :
    (iblk4 V c 4 t : Vec Ideal S1x2 .f32) (ix2 (0 : Fin 1) o) = d4 V c o :=
  congrArg (V c main_v69) (funext fun a => Fin.ext (win4_4.rect_emb_val_of_index_zero t a ((idx_facts4 t).2 a).2.2.1 _))

-- One step adds, at (g, n), the product of its two blocks there, indexed along the whole contraction axis.
private theorem step4 (c : Dev nD) (t : Fin cfg4.N) (a : Vec Ideal S16x512 .f32) (g : Fin 16) (n : Fin 512) :
    k4_pay2 (iblk4 V c 0 t) (iblk4 V c 1 t) a (ix2 g n)
      = a (ix2 g n) + ∑ q : Fin 4096, x4 V c g (gpos t.val q) * w4 V c (gpos t.val q) n := by
  unfold k4_pay2
  simp only [shapeCast_self]
  rw [addf_apply, matmul, mm_apply dot_S16x4096_S4096x512_S16x512_1_0_0_1_n_n rfl rfl rfl rfl (fun _ _ => rfl) (fun _ _ => rfl)]
  exact congrArg (_ + ·) (Finset.sum_congr rfl fun q _ => by rw [blk4_0_apply, blk4_1_apply])

theorem sacc4_apply (c : Dev nD) (g : Fin 16) (n' : Fin 512) : ∀ (n : ℕ) (hn : n < cfg4.N),
    sacc4 V c n hn (ix2 g n') = ∑ t ∈ Finset.range (n + 1), ∑ q : Fin 4096, x4 V c g (gpos t q) * w4 V c (gpos t q) n'
  | 0, hn => (step4 V c ⟨0, hn⟩ _ g n').trans (by rw [pay4_1_apply, zero_add, Finset.sum_range_one])
  | n + 1, hn => (step4 V c ⟨n + 1, hn⟩ _ g n').trans (by rw [sacc4_apply c g n' n, Finset.sum_range_succ _ (n + 1)])

-- The 65 blocks of 4096 positions are the 266240 positions of the contraction axis (a finite sum re-groups freely).
theorem sum_blocks {M : Type*} [AddCommMonoid M] (f : Fin 266240 → M) :
    ∑ t ∈ Finset.range 65, ∑ q : Fin 4096, f (gpos t q) = ∑ k : Fin 266240, f k := by
  rw [Finset.sum_range (fun t => ∑ q : Fin 4096, f (gpos t q)),
    ← Equiv.sum_comp ((finProdFinEquiv (m := 65) (n := 4096)).trans (finCongr (by norm_num : 65 * 4096 = 266240))) f,
    Fintype.sum_prod_type]
  refine Finset.sum_congr rfl fun t _ => Finset.sum_congr rfl fun q _ => congrArg f (Fin.ext ?_)
  show (t.val * 4096 + q.val) % 266240 = q.val + 4096 * t.val
  have := t.isLt; have := q.isLt; omega

def res4 (c : Dev nD) (g : Fin 16) (o : Fin 2) : EReal :=
  (∑ n : Fin 512, max ((∑ k : Fin 266240, x4 V c g k * w4 V c k n) + b4 V c n) 0 * u4 V c n o) + d4 V c o

abbrev t4_64 : Fin cfg4.N := ⟨64, by rw [show cfg4.N = 65 from N_4]; decide⟩

theorem out4_last (c : Dev nD) (g : Fin 16) (o : Fin 2) : out4 V c t4_64 (ix2 g o) = res4 V c g o := by
  show k4_pay3 (sacc4 V c 64 t4_64.isLt) (iblk4 V c 2 t4_64) (iblk4 V c 3 t4_64) (iblk4 V c 4 t4_64) (ix2 g o) = _
  unfold k4_pay3
  simp only [shapeCast_self]
  rw [addf_apply, matmul, mm_apply dot_S16x512_S512x2_S16x2_1_0_0_1_n_n rfl rfl rfl rfl (fun _ _ => rfl) (fun _ _ => rfl), broadcastTo_1b_ab_apply, blk4_4_apply]
  refine congrArg (· + _) (Finset.sum_congr rfl fun n _ => ?_)
  rw [truncf_apply, maximumf_apply, addf_apply, broadcastTo_1b_ab_apply, broadcast_apply, sacc4_apply, blk4_2_apply, blk4_3_apply,
    sum_blocks fun k => x4 V c g k * w4 V c k n]
  show max _ (Ideal.ofBits .f32 0x00000000#32) * _ = _
  rw [Ideal.ofBits_zero_f32]

def G4 (c : Dev nD) : Buf (Elt Ideal) ((c : Thread nD τ).loc main_v70) :=
  fun (i : S16x2.Idx) => res4 V c (i 0) (i 1)

private theorem emb4_5 (y : S16x2.Idx) : ((cfg4.win 5).blk t4_64).view.emb y = y :=
  funext fun a => Fin.ext (win4_5.rect_emb_val_of_index_zero t4_64 a ((idx_facts4 t4_64).2 a).2.2.2 y)

theorem flushed4_5_eq (c : Dev nD) (t : Fin cfg4.N) (hf : (cfg4.win 5).flush t = true) :
    (dat4 V c).flushed 5 t = ((cfg4.win 5).blk t).view.read (Elt Ideal) (G4 V c) := by
  have h64 : t.val = 64 := by have hN : cfg4.N = 65 := N_4; have := (flush4_5 t).mp hf; have := t.isLt; omega
  obtain rfl : t = t4_64 := Fin.ext h64
  funext j
  obtain ⟨g, o, rfl⟩ : ∃ (g : Fin 16) (o : Fin 2), j = ix2 g o := ⟨j 0, j 1, eq_ix2 (n0 := 16) (n1 := 2) j⟩
  show out4 V c t4_64 (ix2 g o) = G4 V c (((cfg4.win 5).blk t4_64).view.emb (ix2 g o))
  rw [emb4_5, out4_last]
  rfl

theorem arr4_5 (c : Dev nD) : (dat4 V c).arrAt 5 cfg4.N = G4 V c :=
  (dat4 V c).arrAt_eq_of_cover 5 (G4 V c) (flushed4_5_eq V c) fun i =>
    ⟨t4_64, (flush4_5 t4_64).mpr rfl, by
      have h := ((cfg4.win 5).blk t4_64).view.emb_mem_set i
      rwa [emb4_5] at h⟩

theorem val4_out (c : Dev nD) (g : Fin 16) (o : Fin 2) :
    (dat4 (F := Ideal) V c).arrAt 5 cfg4.N (ix2 g o)
      = (∑ n : Fin 512, max ((∑ k : Fin 266240, x4 V c g k * w4 V c k n) + b4 V c n) 0 * u4 V c n o) + d4 V c o := by
  rw [arr4_5]
  rfl

end Cert.KernelIdeal.Fr

end
-- ==== Proof.KI.HeadVal.lean ====
import proofs.«120946_j80985903333894_1_alg».proof.Proof.KI.Fold
import proofs.«120946_j80985903333894_1_alg».proof.Proof.Model
import Idealize.ShloMosaic.Lib.KernelVsHost
import Idealize.ShloMosaic.Lib.ValueLayout

noncomputable section

namespace Cert.KernelIdeal.Fr

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

abbrev outArr4 : Vec Ideal S16x2 .f32 := (dat4 (E13 m) c).arrAt 5 cfg4.N
abbrev hd_x65 : Vec Ideal S16x266240 .bf16 := E13 m c main_v65
abbrev hd_w66 : Vec Ideal S266240x512 .bf16 := E13 m c main_v66
abbrev hd_b67 : Vec Ideal S1x512 .f32 := E13 m c main_v67
abbrev hd_w68 : Vec Ideal S512x2 .bf16 := E13 m c main_v68
abbrev hd_b69 : Vec Ideal S1x2 .f32 := E13 m c main_v69
abbrev hd_o58 : Vec Ideal S131072x32 .f32 := W8 m c main_v58
abbrev hd_exArr : Vec Ideal S16x32 .f32 := m ((c : Thread nD τ).loc main_arg1)
abbrev hd_fwArr : Vec Ideal S262176x512 .f32 := m ((c : Thread nD τ).loc main_arg13)
abbrev hd_fbArr : Vec Ideal S512 .f32 := m ((c : Thread nD τ).loc main_arg14)
abbrev hd_f2Arr : Vec Ideal S512x2 .f32 := m ((c : Thread nD τ).loc main_arg15)
abbrev hd_f2bArr : Vec Ideal S2 .f32 := m ((c : Thread nD τ).loc main_arg16)

theorem hd_W8_kept (r : Ref sig .tc)
    (h : (r ∉ hostOps0_W ∧ r ∉ hostOps1_W ∧ r ∉ hostOps2_W ∧ r ∉ hostOps3_W) ∧ (∀ w, Pipeline.arrRef spec0 w ≠ r)
      ∧ (∀ w, Pipeline.arrRef spec1 w ≠ r) ∧ (∀ w, Pipeline.arrRef spec2 w ≠ r) ∧ ∀ w, Pipeline.arrRef spec3 w ≠ r) :
    W8 m c (Proc.devRef .tc r) = m (c, Proc.devRef .tc r) :=
  (W8_of_ne m c r h.2.2.2.2).trans <| (StableHlo.after_of_writes_sub hostOps3 _ hostOps3_writes h.1.2.2.2).trans <|
  (W6_of_ne m c r h.2.2.2.1).trans <| (StableHlo.after_of_writes_sub hostOps2 _ hostOps2_writes h.1.2.2.1).trans <|
  (W4_of_ne m c r h.2.2.1).trans <| (StableHlo.after_of_writes_sub hostOps1 _ hostOps1_writes h.1.2.1).trans <|
  (W2_of_ne m c r h.2.1).trans <| StableHlo.after_of_writes_sub hostOps0 _ hostOps0_writes h.1.1

abbrev hd_flatArr : Vec Ideal S16x262144 .f32 :=
  shapeCast S16x262144 (transpose S16x8192x32 [1, 0, 2] (shapeCast S8192x16x32 (hd_o58 m c) shapeCasts_S131072x32_S8192x16x32)
    transposes_S8192x16x32_S16x8192x32_1_0_2) shapeCasts_S16x8192x32_S16x262144

abbrev hd_catArr : Vec Ideal S16x262176 .f32 :=
  concatenate S16x262176 1 [⟨S16x262144, hd_flatArr m c⟩, ⟨S16x32, hd_exArr m c⟩] concatenates_S16x262144_S16x32_S16x262176_d1

-- Entry (graph, 32 · node + column) of the regrouped rows is row 16 · node + graph at that column.
theorem hd_flatArr_apply (g : Fin 16) (k : Fin 262144) :
    hd_flatArr m c (ix2 g k)
      = hd_o58 m c (ix2 (⟨(k.val / 32) * 16 + g.val, by omega⟩ : Fin 131072) (⟨k.val % 32, Nat.mod_lt _ (by decide)⟩ : Fin 32)) := by
  refine (shapeCast_apply _ shapeCasts_S16x8192x32_S16x262144 (ix2 g k)
    (ix3 g (⟨k.val / 32, by omega⟩ : Fin 8192) (⟨k.val % 32, Nat.mod_lt _ (by decide)⟩ : Fin 32)) (by
      rw [Shape.rowMajor_val_three, Shape.rowMajor_val_two]
      show (g.val * 8192 + k.val / 32) * 32 + k.val % 32 = g.val * 262144 + k.val
      omega)).trans ?_
  refine (transpose_apply _ _ transposes_S8192x16x32_S16x8192x32_1_0_2 _
    (ix3 (⟨k.val / 32, by omega⟩ : Fin 8192) g (⟨k.val % 32, Nat.mod_lt _ (by decide)⟩ : Fin 32))
    (fun b => match b with | ⟨0, _⟩ => rfl | ⟨1, _⟩ => rfl | ⟨2, _⟩ => rfl)).trans ?_
  exact shapeCast_apply _ shapeCasts_S131072x32_S8192x16x32 _ _ (by
    rw [Shape.rowMajor_val_two, Shape.rowMajor_val_three]
    rfl)

-- The features are the specification's concatenation of the second layer's rows and the extra features.
theorem hd_catArr_apply (O : Fin Spec.NR → Fin 32 → EReal) (hO : ∀ (r : Fin 131072) (j : Fin 32), hd_o58 m c (ix2 r j) = O r j)
    (g : Fin 16) (k : Fin 262176) :
    hd_catArr m c (ix2 g k) = Spec.cat O (fun g k => hd_exArr m c (ix2 g k)) g k := by
  unfold Spec.cat
  by_cases h : k.val < 262144
  · rw [dif_pos h]
    refine (concatenate_pair_apply_left (1 : Fin 2) (hd_flatArr m c) (hd_exArr m c) _ (ix2 g k) rfl (ix2 g (⟨k.val, h⟩ : Fin 262144))
      (fun b => match b with | ⟨0, _⟩ => rfl | ⟨1, _⟩ => rfl)).trans ?_
    rw [hd_flatArr_apply, hO]
  · rw [dif_neg h]
    exact concatenate_pair_apply_right (1 : Fin 2) (hd_flatArr m c) (hd_exArr m c) _ (ix2 g k) rfl rfl (ix2 g (⟨k.val - 262144, by omega⟩ : Fin 32))
      (fun b hb => match b, hb with | ⟨0, _⟩, _ => rfl | ⟨1, _⟩, hb => absurd rfl hb)
      (by show (k.val - 262144) + 262144 = k.val; omega)

-- The head's first operand is the features followed by zeros along the contraction axis.
private theorem hd_x65_apply (g : Fin 16) (k : Fin 266240) :
    hd_x65 m c (ix2 g k) = if h : k.val < 262176 then hd_catArr m c (ix2 g (⟨k.val, h⟩ : Fin 262176)) else (0 : EReal) := by
  show W13 m c (Proc.devRef .tc main_v65) _ = _
  rw [show W13 m c (Proc.devRef .tc main_v65) = W10 m c (Proc.devRef .tc main_v65) from
    (StableHlo.after_of_writes_sub hostOps4_4 _ hostOps4_4_writes (by decide)).trans <|
    (StableHlo.after_of_writes_sub hostOps4_3 _ hostOps4_3_writes (by decide)).trans <|
    (StableHlo.after_of_writes_sub hostOps4_2 _ hostOps4_2_writes (by decide))]
  show StableHlo.after hostOps4_1 (W9 m c) (Proc.devRef .tc main_v65) _ = _
  after_results
  rw [hd_W8_kept m c main_arg1 (by decide)]
  by_cases h : k.val < 262176
  · rw [dif_pos h]
    exact pad_apply_of_inside _ ![0, 4064] _ _ _ pads_S16x262176_S16x266240_000_040640 _ _ (ix2 g (⟨k.val, h⟩ : Fin 262176))
      (fun a => match a with
        | ⟨0, _⟩ => by show g.val = 0 + g.val * (0 + 1); omega
        | ⟨1, _⟩ => by show k.val = 0 + k.val * (0 + 1); omega)
  · rw [dif_neg h]
    refine (pad_apply_of_not_inside _ ![0, 4064] _ _ _ pads_S16x262176_S16x266240_000_040640 _ _ (1 : Fin 2) ?_).trans
      (by show (((0#32 : BitVec 32).toInt : ℝ) : EReal) = 0; simp)
    show ¬(0 ≤ k.val ∧ (k.val - 0) % (0 + 1) = 0 ∧ (k.val - 0) / (0 + 1) < 262176)
    omega

theorem hd_w66_inside (k : Fin 266240) (n : Fin 512) (h : k.val < 262176) :
    hd_w66 m c (ix2 k n) = hd_fwArr m c (ix2 (⟨k.val, h⟩ : Fin 262176) n) := by
  show W13 m c (Proc.devRef .tc main_v66) _ = _
  rw [show W13 m c (Proc.devRef .tc main_v66) = W12 m c (Proc.devRef .tc main_v66) from
    StableHlo.after_of_writes_sub hostOps4_4 _ hostOps4_4_writes (by decide)]
  show StableHlo.after hostOps4_3 (W11 m c) (Proc.devRef .tc main_v66) _ = _
  after_results
  rw [hd_W8_kept m c main_arg13 (by decide)]
  exact pad_apply_of_inside _ ![4064, 0] _ _ _ pads_S262176x512_S266240x512_040640_000 _ _ (ix2 (⟨k.val, h⟩ : Fin 262176) n)
    (fun a => match a with
      | ⟨0, _⟩ => by show k.val = 0 + k.val * (0 + 1); omega
      | ⟨1, _⟩ => by show n.val = 0 + n.val * (0 + 1); omega)

theorem hd_b67_apply (n : Fin 512) : hd_b67 m c (ix2 (0 : Fin 1) n) = hd_fbArr m c (ix1 n) := by
  show StableHlo.after hostOps4_4 (W12 m c) (Proc.devRef .tc main_v67) _ = _
  after_results
  rw [hd_W8_kept m c main_arg14 (by decide)]
  exact shapeCast_a_1a_apply _ _ _ _

theorem hd_w68_apply (n : Fin 512) (o : Fin 2) : hd_w68 m c (ix2 n o) = hd_f2Arr m c (ix2 n o) := by
  show StableHlo.after hostOps4_4 (W12 m c) (Proc.devRef .tc main_v68) _ = _
  after_results
  rw [hd_W8_kept m c main_arg15 (by decide)]
  rfl

theorem hd_b69_apply (o : Fin 2) : hd_b69 m c (ix2 (0 : Fin 1) o) = hd_f2bArr m c (ix1 o) := by
  show StableHlo.after hostOps4_4 (W12 m c) (Proc.devRef .tc main_v69) _ = _
  after_results
  rw [hd_W8_kept m c main_arg16 (by decide)]
  exact shapeCast_a_1a_apply _ _ _ _

-- A sum whose terms past a point vanish is the sum up to that point.
theorem hd_sum_padded {N P : ℕ} (f : Fin (N + P) → EReal) (h : ∀ k : Fin P, f (Fin.natAdd N k) = 0) :
    ∑ k, f k = ∑ k : Fin N, f (Fin.castAdd P k) := by
  rw [Fin.sum_univ_add, Finset.sum_eq_zero fun k _ => h k, add_zero]

-- The padded positions contribute zero times a number, so the contraction is that of the features with the first weights.
theorem hd_contraction (O : Fin Spec.NR → Fin 32 → EReal) (hO : ∀ (r : Fin 131072) (j : Fin 32), hd_o58 m c (ix2 r j) = O r j)
    (g : Fin 16) (n : Fin 512) :
    (∑ k : Fin 266240, (hd_x65 m c (ix2 g k) : EReal) * (hd_w66 m c (ix2 k n) : EReal))
      = ∑ k : Fin 262176, Spec.cat O (fun g k => hd_exArr m c (ix2 g k)) g k * (hd_fwArr m c (ix2 k n) : EReal) := by
  refine (hd_sum_padded (N := 262176) (P := 4064) (fun k => (hd_x65 m c (ix2 g k) : EReal) * (hd_w66 m c (ix2 k n) : EReal))
    fun k => ?_).trans (Finset.sum_congr rfl fun k _ => ?_)
  · rw [hd_x65_apply, dif_neg (by show ¬(262176 + k.val < 262176); omega), zero_mul]
  · rw [hd_x65_apply, dif_pos (show (Fin.castAdd 4064 k).val < 262176 from k.isLt), hd_w66_inside m c _ n k.isLt, hd_catArr_apply m c O hO]
    rfl

theorem head_value
    (h4 : ∀ (g : Fin 16) (o : Fin 2), outArr4 m c (ix2 g o)
      = (∑ n : Fin 512, max ((∑ k : Fin 266240, (hd_x65 m c (ix2 g k) : EReal) * (hd_w66 m c (ix2 k n) : EReal)) + hd_b67 m c (ix2 (0 : Fin 1) n)) 0
          * hd_w68 m c (ix2 n o)) + hd_b69 m c (ix2 (0 : Fin 1) o))
    (O : Fin Spec.NR → Fin 32 → EReal) (hO : ∀ (r : Fin 131072) (j : Fin 32), hd_o58 m c (ix2 r j) = O r j)
    (g : Fin 16) (o : Fin 2) :
    (W14 m c main_v70 : Vec Ideal S16x2 .f32) (ix2 g o)
      = Spec.head O (fun g k => hd_exArr m c (ix2 g k)) (fun k n => hd_fwArr m c (ix2 k n)) (fun n => hd_fbArr m c (ix1 n))
          (fun n o => hd_f2Arr m c (ix2 n o)) (fun o => hd_f2bArr m c (ix1 o)) g o := by
  refine (congrFun (show (W14 m c main_v70 : Vec Ideal S16x2 .f32) = outArr4 m c from W14_arr m c 5) (ix2 g o)).trans ?_
  rw [h4 g o]
  unfold Spec.head
  rw [hd_b69_apply]
  refine congrArg (fun s : EReal => s + (hd_f2bArr m c (ix1 o) : EReal)) (Finset.sum_congr rfl fun n _ => ?_)
  rw [hd_contraction m c O hO, hd_b67_apply, hd_w68_apply]

end Cert.KernelIdeal.Fr

end
-- ==== Proof.KI.KernelValue.lean ====
import proofs.«120946_j80985903333894_1_alg».proof.Proof.KI.Layer2
import proofs.«120946_j80985903333894_1_alg».proof.Proof.KI.MidVal
import proofs.«120946_j80985903333894_1_alg».proof.Proof.KI.R4Val
import proofs.«120946_j80985903333894_1_alg».proof.Proof.KI.HeadVal

noncomputable section

namespace Cert.KernelIdeal.Fr

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

namespace KV

abbrev a0 : (⟨S16x8192x64, .f32⟩ : BufTy).Contents (Elt Ideal) := m ((c : Thread nD τ).loc main_arg0)
abbrev a1 : (⟨S16x32, .f32⟩ : BufTy).Contents (Elt Ideal) := m ((c : Thread nD τ).loc main_arg1)
abbrev a2 : (⟨S131072, .i32⟩ : BufTy).Contents (Elt Ideal) := m ((c : Thread nD τ).loc main_arg2)
abbrev a3 : (⟨S131072, .i32⟩ : BufTy).Contents (Elt Ideal) := m ((c : Thread nD τ).loc main_arg3)
abbrev a4 : (⟨S131072, .f32⟩ : BufTy).Contents (Elt Ideal) := m ((c : Thread nD τ).loc main_arg4)
abbrev a5 : (⟨S64x32, .f32⟩ : BufTy).Contents (Elt Ideal) := m ((c : Thread nD τ).loc main_arg5)
abbrev a6 : (⟨S32, .f32⟩ : BufTy).Contents (Elt Ideal) := m ((c : Thread nD τ).loc main_arg6)
abbrev a7 : (⟨S32, .f32⟩ : BufTy).Contents (Elt Ideal) := m ((c : Thread nD τ).loc main_arg7)
abbrev a8 : (⟨S32, .f32⟩ : BufTy).Contents (Elt Ideal) := m ((c : Thread nD τ).loc main_arg8)
abbrev a9 : (⟨S32x32, .f32⟩ : BufTy).Contents (Elt Ideal) := m ((c : Thread nD τ).loc main_arg9)
abbrev a10 : (⟨S32, .f32⟩ : BufTy).Contents (Elt Ideal) := m ((c : Thread nD τ).loc main_arg10)
abbrev a11 : (⟨S32, .f32⟩ : BufTy).Contents (Elt Ideal) := m ((c : Thread nD τ).loc main_arg11)
abbrev a12 : (⟨S32, .f32⟩ : BufTy).Contents (Elt Ideal) := m ((c : Thread nD τ).loc main_arg12)
abbrev a13 : (⟨S262176x512, .f32⟩ : BufTy).Contents (Elt Ideal) := m ((c : Thread nD τ).loc main_arg13)
abbrev a14 : (⟨S512, .f32⟩ : BufTy).Contents (Elt Ideal) := m ((c : Thread nD τ).loc main_arg14)
abbrev a15 : (⟨S512x2, .f32⟩ : BufTy).Contents (Elt Ideal) := m ((c : Thread nD τ).loc main_arg15)
abbrev a16 : (⟨S2, .f32⟩ : BufTy).Contents (Elt Ideal) := m ((c : Thread nD τ).loc main_arg16)

end KV

open KV

-- The two layers, the sparse product between them and the head, composed.
theorem kernel_value (g : Fin 16) (o : Fin 2) :
    (W14 m c main_v70 : Vec Ideal S16x2 .f32) (ix2 g o)
      = Model.modelK (a0 m c) (a1 m c) (a2 m c) (a3 m c) (a4 m c) (a5 m c) (a6 m c) (a7 m c) (a8 m c) (a9 m c) (a10 m c)
          (a11 m c) (a12 m c) (a13 m c) (a14 m c) (a15 m c) (a16 m c) g o :=
  head_value m c (val4_out (E13 m) c) _
    (layer2_value_of m c
      (mid_value m c (keepW4 m kept_arg2 c) (keepW4 m kept_arg3 c) (keepW4 m kept_arg4 c) _ (layer1_value m c))) g o

end Cert.KernelIdeal.Fr

end
-- ==== Proof.Ref.Mid.lean ====
import proofs.«120946_j80985903333894_1_alg».proof.Proof.Gen.ReferenceIdeal.Read
import proofs.«120946_j80985903333894_1_alg».proof.Proof.Model

namespace Cert.RefValue

open Idealize.ShloMosaic Idealize.ShloMosaic.ValueIdx Cert.ReferenceIdeal Cert.ReferenceIdeal.Read

variable {x0 : (⟨S16x8192x64, .f32⟩ : BufTy).Contents (Elt Ideal)} {x2 x3 : (⟨S131072, .i32⟩ : BufTy).Contents (Elt Ideal)}
  {x4 : (⟨S131072, .f32⟩ : BufTy).Contents (Elt Ideal)} {x5 : (⟨S64x32, .f32⟩ : BufTy).Contents (Elt Ideal)}
  {x6 x7 x8 : (⟨S32, .f32⟩ : BufTy).Contents (Elt Ideal)} {O : Fin Spec.NR → Fin 32 → EReal}

-- At (n, c) both arrays hold row `16 n + c / 32` of `O` at column `c % 32`, since 512 n + c = 32 (16 n + c / 32) + c % 32.
theorem ref_mid (hO : ∀ (b : Fin 16) (n : Fin 8192) (j : Fin 32),
      val_main_v47 (F := Ideal) x0 x2 x3 x4 x5 x6 x7 x8 (ix3 b n j) = O (⟨16 * n.val + b.val, by omega⟩ : Fin 131072) j)
    (r : Fin 131072) (k : Fin 32) :
    val_main_v63 (F := Ideal) x0 x2 x3 x4 x5 x6 x7 x8 (ix2 r k) = Model.rows2 x2 x3 x4 O r k := by
  have h49 : val_main_v49 (F := Ideal) x0 x2 x3 x4 x5 x6 x7 x8 = shapeCast Cert.KernelIdeal.S8192x512 (Model.arr32 O)
      Cert.KernelIdeal.Facts₀.shapeCasts_S131072x32_S8192x512 := by
    funext i
    obtain ⟨n, c, rfl⟩ : ∃ (n : Fin 8192) (c : Fin 512), i = ix2 n c := ⟨i 0, i 1, eq_ix2 i⟩
    have hn : n.val < 8192 := n.isLt
    have hc : c.val < 512 := c.isLt
    rw [val_main_v49_apply, val_main_v48_apply, show idx_main_v48 (idx_main_v49 (ix2 n c))
      = ix3 (⟨c.val / 32, by omega⟩ : Fin 16) n (⟨c.val % 32, by omega⟩ : Fin 32) from funext fun a => Fin.ext (by
        match a with
        | ⟨0, _⟩ => show (n.val * 512 + c.val) / 32 % 16 = c.val / 32; omega
        | ⟨1, _⟩ => show (n.val * 512 + c.val) / 512 = n.val; omega
        | ⟨2, _⟩ => show (n.val * 512 + c.val) % 32 = c.val % 32; omega), hO]
    refine ((shapeCast_apply (Model.arr32 O) _ (ix2 n c)
      (ix2 (⟨16 * n.val + c.val / 32, by omega⟩ : Fin 131072) (⟨c.val % 32, by omega⟩ : Fin 32)) ?_).trans rfl).symm
    rw [Shape.rowMajor_val_two, Shape.rowMajor_val_two]
    show (16 * n.val + c.val / 32) * 32 + c.val % 32 = n.val * 512 + c.val
    omega
  unfold Model.rows2 Sparse.lx2
  rw [← h49]
  rfl

end Cert.RefValue
-- ==== Proof.Ref.Layer1.lean ====
import proofs.«120946_j80985903333894_1_alg».proof.Proof.Gen.ReferenceIdeal.Read
import proofs.«120946_j80985903333894_1_alg».proof.Proof.Model

namespace Cert.RefValue

open Idealize.ShloMosaic Idealize.ShloMosaic.ValueIdx Cert.ReferenceIdeal Cert.ReferenceIdeal.Read

-- Quotient and remainder by 16 put the rows `16·node + graph` in bijection with the (graph, node) pairs.
theorem hostReduceAdd_rows {T : S16x8192x32.Idx → EReal} {Y : Fin 131072 → Fin 32 → EReal}
    (hT : ∀ (b : Fin 16) (n : Fin 8192) (j : Fin 32), T (ix3 b n j) = Y (⟨16 * n.val + b.val, by omega⟩ : Fin 131072) j)
    {c : S_.Idx → EReal} (hc : ∀ i, c i = 0) (h : S16x8192x32.ReducesTo [0, 1] S32) (hu : 0 < S_.numel) (i : S32.Idx) :
    Host.reduceAdd (F := Ideal) (φ := .f32) T c h hu i = ∑ r, Y r (i 0) := by
  obtain ⟨j, rfl⟩ : ∃ j, i = ix1 j := ⟨_, eq_ix1 i⟩
  refine (congrArg (· + _) (hc _)).trans ((zero_add _).trans ?_)
  have hmem : ∀ i : S16x8192x32.Idx, h.drop i = ix1 j ↔ (i 2 : Fin 32) = j := fun i =>
    ⟨fun e => Fin.ext ((h.drop_apply_val_of_eq i 0 2).symm.trans (congrArg (fun t => (t 0 : Fin 32).val) e)),
      fun e => (eq_ix1 _).trans (congrArg ix1 (Fin.ext ((h.drop_apply_val_of_eq i 0 2).trans (congrArg Fin.val e))))⟩
  refine Finset.sum_nbij' (s := Finset.univ.filter fun i => h.drop i = ix1 j) (t := Finset.univ)
    (fun i => (⟨16 * (i 1 : Fin 8192).val + (i 0 : Fin 16).val, by
      have h0 : (i 0 : Fin 16).val < 16 := (i 0).isLt; have h1 : (i 1 : Fin 8192).val < 8192 := (i 1).isLt; omega⟩ : Fin 131072))
    (fun r => ix3 (⟨r.val % 16, by omega⟩ : Fin 16) (⟨r.val / 16, by omega⟩ : Fin 8192) j)
    (fun i _ => Finset.mem_univ _) (fun r _ => Finset.mem_filter.2 ⟨Finset.mem_univ _, (hmem _).2 rfl⟩) ?_
    (fun r _ => Fin.ext (by show 16 * (r.val / 16) + r.val % 16 = r.val; omega)) ?_ <;> intro i hi <;>
    have e2 : (i 2 : Fin 32) = j := (hmem i).1 (Finset.mem_filter.1 hi).2
  · have h0 : (i 0 : Fin 16).val < 16 := (i 0).isLt
    refine (congrArg₂ (ix3 · · j) (Fin.ext ?_) (Fin.ext ?_)).trans ((congrArg _ e2.symm).trans (eq_ix3 i).symm)
    · show (16 * (i 1 : Fin 8192).val + (i 0 : Fin 16).val) % 16 = _; omega
    · show (16 * (i 1 : Fin 8192).val + (i 0 : Fin 16).val) / 16 = _; omega
  · exact (congrArg T ((eq_ix3 i).trans (congrArg _ e2))).trans (hT _ _ _)

-- The reshape splits the row number into (node, graph) and the transpose swaps the two.
theorem ref_v21_row (b : Fin 16) (n : Fin 8192) (j : Fin 32) :
    idx_main_v20 (idx_main_v21 (ix3 b n j)) = ix2 (⟨16 * n.val + b.val, by omega⟩ : Fin 131072) j :=
  (eq_ix2 _).trans (congrArg₂ ix2 (Fin.ext (by show ((n.val * 16 + b.val) * 32 + j.val) / 32 = 16 * n.val + b.val; omega))
    (Fin.ext (by show ((n.val * 16 + b.val) * 32 + j.val) % 32 = j.val; omega)))

variable {x0 : (⟨S16x8192x64, .f32⟩ : BufTy).Contents (Elt Ideal)} {x2 x3 : (⟨S131072, .i32⟩ : BufTy).Contents (Elt Ideal)}
  {x4 : (⟨S131072, .f32⟩ : BufTy).Contents (Elt Ideal)} {x5 : (⟨S64x32, .f32⟩ : BufTy).Contents (Elt Ideal)}
  {x6 x7 x8 : (⟨S32, .f32⟩ : BufTy).Contents (Elt Ideal)} {L : Fin Spec.NR → Fin 64 → EReal}

-- The affine rows, their column means over the rows, the means of the squared deviations, then the pointwise tail.
theorem ref_layer1_of (hL : ∀ (r : Fin 131072) (k : Fin 64), val_main_v15 (F := Ideal) x0 x2 x3 x4 (ix2 r k) = L r k)
    (b : Fin 16) (n : Fin 8192) (j : Fin 32) :
    val_main_v47 (F := Ideal) x0 x2 x3 x4 x5 x6 x7 x8 (ix3 b n j)
      = Spec.layerR L (fun k j => x5 (ix2 k j)) (fun j => x6 (ix1 j)) (fun j => x7 (ix1 j)) (fun j => x8 (ix1 j))
          (⟨16 * n.val + b.val, by omega⟩ : Fin 131072) j := by
  let Y := Spec.affine L (fun k j => x5 (ix2 k j)) fun j => x6 (ix1 j)
  have hA : ∀ (r : Fin 131072) (j : Fin 32), val_main_v19 (F := Ideal) x0 x2 x3 x4 x5 x6 (ix2 r j) = Y r j := fun r j => by
    rw [val_main_v19_apply, val_main_v16_apply, val_main_v18_apply, val_main_v17_apply,
      eq_ix1 (n := 32) (idx_main_v17 (idx_main_v18 (ix2 r j)))]
    simp only [show ∀ k, lidx_main_v16 (ix2 r j) k = ix2 r k from fun _ => eq_ix2 _,
      show ∀ k, ridx_main_v16 (ix2 r j) k = ix2 k j from fun _ => eq_ix2 _, hL]
    rfl
  have hT : ∀ (b : Fin 16) (n : Fin 8192) (j : Fin 32),
      val_main_v21 (F := Ideal) x0 x2 x3 x4 x5 x6 (ix3 b n j) = Y (⟨16 * n.val + b.val, by omega⟩ : Fin 131072) j := fun b n j => by
    rw [val_main_v21_apply, val_main_v20_apply, ref_v21_row]
    exact hA _ j
  have hm : ∀ i, val_main_v24 (F := Ideal) x0 x2 x3 x4 x5 x6 i = Spec.mean Y (i 0) := fun i => by
    rw [val_main_v24_apply, val_main_v23_apply, val_main_cst_2_apply]
    exact congrArg (Ideal.div · _) (hostReduceAdd_rows hT (fun _ => Ideal.ofBits_zero_f32) _ _ i)
  have hv : ∀ i, val_main_v31 (F := Ideal) x0 x2 x3 x4 x5 x6 i = Spec.varR Y (i 0) := fun i => by
    rw [val_main_v31_apply, val_main_v30_apply, val_main_cst_4_apply]
    refine congrArg (Ideal.div · _) (hostReduceAdd_rows (Y := fun r j => (Y r j - Spec.mean Y j) * (Y r j - Spec.mean Y j))
      (fun b n j => ?_) (fun _ => Ideal.ofBits_zero_f32) _ _ i)
    rw [val_main_v28_apply, val_main_v27_apply, val_main_v26_apply, val_main_v25_apply, hm, hT]
    rfl
  rw [val_main_v47_apply, val_main_call0_v0_apply, val_main_call0_cst_apply, val_main_v46_apply, val_main_v45_apply,
    val_main_v44_apply, eq_ix1 (n := 32) (idx_main_v44 _), val_main_v43_apply, val_main_v42_apply, val_main_v41_apply,
    val_main_v40_apply, val_main_v39_apply, val_main_v38_apply, val_main_cst_5_apply, hv,
    val_main_v37_apply, val_main_v36_apply, val_main_v35_apply, eq_ix1 (n := 32) (idx_main_v35 _), val_main_v34_apply,
    val_main_v33_apply, val_main_v32_apply, hm, hT]
  exact congrArg (max _) Ideal.ofBits_zero_f32

theorem ref_layer1 (b : Fin 16) (n : Fin 8192) (j : Fin 32) :
    val_main_v47 (F := Ideal) x0 x2 x3 x4 x5 x6 x7 x8 (ix3 b n j)
      = Spec.layerR (Model.rows1 x0 x2 x3 x4) (fun k j => x5 (ix2 k j)) (fun j => x6 (ix1 j)) (fun j => x7 (ix1 j))
          (fun j => x8 (ix1 j)) (⟨16 * n.val + b.val, by omega⟩ : Fin 131072) j :=
  ref_layer1_of (fun _ _ => rfl) b n j

end Cert.RefValue
-- ==== Proof.Ref.Layer2.lean ====
import proofs.«120946_j80985903333894_1_alg».proof.Proof.Ref.Layer1

namespace Cert.RefValue

open Idealize.ShloMosaic Idealize.ShloMosaic.ValueIdx Cert.ReferenceIdeal Cert.ReferenceIdeal.Read

variable {x0 : (⟨S16x8192x64, .f32⟩ : BufTy).Contents (Elt Ideal)} {x2 x3 : (⟨S131072, .i32⟩ : BufTy).Contents (Elt Ideal)}
  {x4 : (⟨S131072, .f32⟩ : BufTy).Contents (Elt Ideal)} {x5 : (⟨S64x32, .f32⟩ : BufTy).Contents (Elt Ideal)}
  {x6 x7 x8 : (⟨S32, .f32⟩ : BufTy).Contents (Elt Ideal)} {x9 : (⟨S32x32, .f32⟩ : BufTy).Contents (Elt Ideal)}
  {x10 x11 x12 : (⟨S32, .f32⟩ : BufTy).Contents (Elt Ideal)} {L : Fin Spec.NR → Fin 32 → EReal}

-- The first layer's argument again, on the second layer's arrays.
theorem ref_layer2_of
    (hL : ∀ (r : Fin 131072) (k : Fin 32), val_main_v63 (F := Ideal) x0 x2 x3 x4 x5 x6 x7 x8 (ix2 r k) = L r k)
    (b : Fin 16) (n : Fin 8192) (j : Fin 32) :
    val_main_v95 (F := Ideal) x0 x2 x3 x4 x5 x6 x7 x8 x9 x10 x11 x12 (ix3 b n j)
      = Spec.layerR L (fun k j => x9 (ix2 k j)) (fun j => x10 (ix1 j)) (fun j => x11 (ix1 j)) (fun j => x12 (ix1 j))
          (⟨16 * n.val + b.val, by omega⟩ : Fin 131072) j := by
  let Y := Spec.affine L (fun k j => x9 (ix2 k j)) fun j => x10 (ix1 j)
  have hA : ∀ (r : Fin 131072) (j : Fin 32),
      val_main_v67 (F := Ideal) x0 x2 x3 x4 x5 x6 x7 x8 x9 x10 (ix2 r j) = Y r j := fun r j => by
    rw [val_main_v67_apply, val_main_v64_apply, val_main_v66_apply, val_main_v65_apply,
      eq_ix1 (n := 32) (idx_main_v65 (idx_main_v66 (ix2 r j)))]
    simp only [show ∀ k, lidx_main_v64 (ix2 r j) k = ix2 r k from fun _ => eq_ix2 _,
      show ∀ k, ridx_main_v64 (ix2 r j) k = ix2 k j from fun _ => eq_ix2 _, hL]
    rfl
  have hT : ∀ (b : Fin 16) (n : Fin 8192) (j : Fin 32), val_main_v69 (F := Ideal) x0 x2 x3 x4 x5 x6 x7 x8 x9 x10 (ix3 b n j)
      = Y (⟨16 * n.val + b.val, by omega⟩ : Fin 131072) j := fun b n j => by
    rw [val_main_v69_apply, val_main_v68_apply, show idx_main_v68 (idx_main_v69 (ix3 b n j)) = _ from ref_v21_row b n j]
    exact hA _ j
  have hm : ∀ i, val_main_v72 (F := Ideal) x0 x2 x3 x4 x5 x6 x7 x8 x9 x10 i = Spec.mean Y (i 0) := fun i => by
    rw [val_main_v72_apply, val_main_v71_apply, val_main_cst_10_apply]
    exact congrArg (Ideal.div · _) (hostReduceAdd_rows hT (fun _ => Ideal.ofBits_zero_f32) _ _ i)
  have hv : ∀ i, val_main_v79 (F := Ideal) x0 x2 x3 x4 x5 x6 x7 x8 x9 x10 i = Spec.varR Y (i 0) := fun i => by
    rw [val_main_v79_apply, val_main_v78_apply, val_main_cst_12_apply]
    refine congrArg (Ideal.div · _) (hostReduceAdd_rows (Y := fun r j => (Y r j - Spec.mean Y j) * (Y r j - Spec.mean Y j))
      (fun b n j => ?_) (fun _ => Ideal.ofBits_zero_f32) _ _ i)
    rw [val_main_v76_apply, val_main_v75_apply, val_main_v74_apply, val_main_v73_apply, hm, hT]
    rfl
  rw [val_main_v95_apply, val_main_call1_v0_apply, val_main_call1_cst_apply, val_main_v94_apply, val_main_v93_apply,
    val_main_v92_apply, eq_ix1 (n := 32) (idx_main_v92 _), val_main_v91_apply, val_main_v90_apply, val_main_v89_apply,
    val_main_v88_apply, val_main_v87_apply, val_main_v86_apply, val_main_cst_13_apply, hv,
    val_main_v85_apply, val_main_v84_apply, val_main_v83_apply, eq_ix1 (n := 32) (idx_main_v83 _), val_main_v82_apply,
    val_main_v81_apply, val_main_v80_apply, hm, hT]
  exact congrArg (max _) Ideal.ofBits_zero_f32

end Cert.RefValue
-- ==== Proof.Ref.Head.lean ====
import proofs.«120946_j80985903333894_1_alg».proof.Proof.Gen.ReferenceIdeal.Read
import proofs.«120946_j80985903333894_1_alg».proof.Proof.Model

namespace Cert.RefValue

open Cert.ReferenceIdeal Cert.ReferenceIdeal.Gen Cert.ReferenceIdeal.Read Idealize.ShloMosaic Idealize.ShloMosaic.ValueIdx

private theorem lidx98 (g : Fin 16) (n : Fin 512) (k : Fin 262176) : lidx_main_v98 (ix2 g n) k = ix2 g k := eq_ix2 _

private theorem ridx98 (g : Fin 16) (n : Fin 512) (k : Fin 262176) : ridx_main_v98 (ix2 g n) k = ix2 k n := eq_ix2 _

private theorem lidx103 (g : Fin 16) (o : Fin 2) (n : Fin 512) : lidx_main_v103 (ix2 g o) n = ix2 g n := eq_ix2 _

private theorem ridx103 (g : Fin 16) (o : Fin 2) (n : Fin 512) : ridx_main_v103 (ix2 g o) n = ix2 n o := eq_ix2 _

variable {x0 : (⟨S16x8192x64, .f32⟩ : BufTy).Contents (Elt Ideal)} {x1 : (⟨S16x32, .f32⟩ : BufTy).Contents (Elt Ideal)}
  {x2 x3 : (⟨S131072, .i32⟩ : BufTy).Contents (Elt Ideal)} {x4 : (⟨S131072, .f32⟩ : BufTy).Contents (Elt Ideal)}
  {x5 : (⟨S64x32, .f32⟩ : BufTy).Contents (Elt Ideal)} {x6 x7 x8 : (⟨S32, .f32⟩ : BufTy).Contents (Elt Ideal)}
  {x9 : (⟨S32x32, .f32⟩ : BufTy).Contents (Elt Ideal)} {x10 x11 x12 : (⟨S32, .f32⟩ : BufTy).Contents (Elt Ideal)}
  {x13 : (⟨S262176x512, .f32⟩ : BufTy).Contents (Elt Ideal)} {x14 : (⟨S512, .f32⟩ : BufTy).Contents (Elt Ideal)}
  {x15 : (⟨S512x2, .f32⟩ : BufTy).Contents (Elt Ideal)} {x16 : (⟨S2, .f32⟩ : BufTy).Contents (Elt Ideal)}
  {O : Fin Spec.NR → Fin 32 → EReal}

-- Column `k` below 262144 of the joined features is node `k / 32`, feature `k % 32`; from 262144 on, the extra feature `k - 262144`.
theorem ref_head (hO : ∀ (b : Fin 16) (n : Fin 8192) (j : Fin 32),
      val_main_v95 (F := Ideal) x0 x2 x3 x4 x5 x6 x7 x8 x9 x10 x11 x12 (ix3 b n j)
        = O (⟨16 * n.val + b.val, by omega⟩ : Fin 131072) j) (g : Fin 16) (o : Fin 2) :
    val_main_v106 (F := Ideal) x0 x1 x2 x3 x4 x5 x6 x7 x8 x9 x10 x11 x12 x13 x14 x15 x16 (ix2 g o)
      = Spec.head O (fun g k => x1 (ix2 g k)) (fun k n => x13 (ix2 k n)) (fun n => x14 (ix1 n))
          (fun n o => x15 (ix2 n o)) (fun o => x16 (ix1 o)) g o := by
  have hc : ∀ (g : Fin 16) (k : Fin 262176), val_main_v97 (F := Ideal) x0 x1 x2 x3 x4 x5 x6 x7 x8 x9 x10 x11 x12 (ix2 g k)
      = Spec.cat O (fun g k => x1 (ix2 g k)) g k := fun g k => by
    unfold val_main_v97 val_main_v96 Spec.cat
    by_cases hk : k.val < 262144
    · rw [dif_pos hk, concatenate_pair_apply_left 1 _ x1 concatenates_S16x262144_S16x32_S16x262176_d1 (ix2 g k) rfl
        (ix2 g ⟨k.val, hk⟩) (fun b => match b with | ⟨0, _⟩ => rfl | ⟨1, _⟩ => rfl),
        shapeCast_apply _ shapeCasts_S16x8192x32_S16x262144 (ix2 g ⟨k.val, hk⟩)
          (ix3 g ⟨k.val / 32, by omega⟩ ⟨k.val % 32, by omega⟩) (by
            rewrite [Shape.rowMajor_val_three, Shape.rowMajor_val_two]
            show (g.val * 8192 + k.val / 32) * 32 + k.val % 32 = g.val * 262144 + k.val
            omega), hO]
      exact congrArg (O · _) (Fin.ext (by show 16 * (k.val / 32) + g.val = k.val / 32 * 16 + g.val; omega))
    · rw [dif_neg hk]
      exact concatenate_pair_apply_right 1 _ x1 concatenates_S16x262144_S16x32_S16x262176_d1 (ix2 g k) rfl rfl
        (ix2 g ⟨k.val - 262144, by omega⟩) (fun b hb => match b with | ⟨0, _⟩ => rfl | ⟨1, _⟩ => absurd rfl hb)
        (by show k.val - 262144 + 262144 = k.val; omega)
  rw [val_main_v106_apply, val_main_v103_apply, val_main_v105_apply, val_main_v104_apply, eq_ix1 (n := 2) (idx_main_v104 _)]
  simp only [lidx103, ridx103, val_main_v102_apply, val_main_v101_apply, val_main_v98_apply, val_main_v100_apply,
    val_main_v99_apply, val_main_call2_v0_apply, val_main_call2_cst_apply, lidx98, ridx98, hc,
    show ∀ n, idx_main_v99 (idx_main_v100 (ix2 g n)) = ix1 n from fun _ => eq_ix1 _, Ideal.ofBits_def, Ideal.ofBits_zero_f32]
  rfl

end Cert.RefValue
-- ==== Proof.Ref.RefValue.lean ====
import proofs.«120946_j80985903333894_1_alg».proof.Proof.Ref.Mid
import proofs.«120946_j80985903333894_1_alg».proof.Proof.Ref.Layer2
import proofs.«120946_j80985903333894_1_alg».proof.Proof.Ref.Head

namespace Cert.RefValue

open Idealize.ShloMosaic Idealize.ShloMosaic.ValueIdx Idealize.ShloMosaic.TcCoe Idealize.SL.Sem
open Cert.ReferenceIdeal Cert.ReferenceIdeal.Read

-- The four parts compose: layer, sparse product, layer, head.
theorem ref_value (m : (ℓ : Loc nD τ sig) → Buf (Elt Ideal) ℓ) (c : Dev nD) (g : Fin 16) (o : Fin 2) :
    Value.res_out0 (F := Ideal) m c (ix2 g o)
      = Model.modelR
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16)) g o := by
  show Value.res_main_v106 (F := Ideal) m c (ix2 g o) = _
  rw [val_main_v106_eq]
  exact ref_head (ref_layer2_of (ref_mid ref_layer1)) g o

end Cert.RefValue
-- ==== Proof.LibFinite.lean ====
import proofs.«120946_j80985903333894_1_alg».proof.Proof.Spec

namespace Cert.Spec

theorem fin'_coe (a : ℝ) : Fin' (a : EReal) := ⟨EReal.coe_ne_top a, EReal.coe_ne_bot a⟩

-- A finite extended real is the image of a real, and the reals are closed under each operation below.
theorem fin'_add {x y : EReal} (hx : Fin' x) (hy : Fin' y) : Fin' (x + y) := by
  lift x to ℝ using hx; lift y to ℝ using hy; exact fin'_coe (x + y)

theorem fin'_mul {x y : EReal} (hx : Fin' x) (hy : Fin' y) : Fin' (x * y) := by
  lift x to ℝ using hx; lift y to ℝ using hy; exact fin'_coe (x * y)

theorem fin'_sub {x y : EReal} (hx : Fin' x) (hy : Fin' y) : Fin' (x - y) := by
  lift x to ℝ using hx; lift y to ℝ using hy; exact fin'_coe (x - y)

theorem fin'_max {x y : EReal} (hx : Fin' x) (hy : Fin' y) : Fin' (max x y) := by
  rcases max_choice x y with h | h <;> rw [h] <;> assumption

theorem fin'_sum {ι : Type*} (s : Finset ι) (f : ι → EReal) (hf : ∀ i, Fin' (f i)) : Fin' (∑ i ∈ s, f i) :=
  Finset.sum_induction f Fin' (fun _ _ => fin'_add) (fin'_coe 0) fun i _ => hf i

end Cert.Spec
-- ==== Proof.SpecLaw.lean ====
import proofs.«120946_j80985903333894_1_alg».proof.Proof.LibFinite

namespace Cert.Spec

open Idealize.ShloMosaic

theorem cnt_eq : cnt = ((131072 : ℝ) : EReal) := by
  simp [cnt, Ideal.ofBits, Ideal.ieee, -EReal.coe_mul]; norm_num

theorem eps_pos : ∃ e : ℝ, 0 < e ∧ eps = (e : EReal) := by
  simp [eps, Ideal.ofBits, Ideal.ieee, -EReal.coe_mul]

theorem coe_sum {ι : Type*} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s

-- With m the mean: the mean of the squares less m² is the mean of the squared deviations from m.
theorem real_var (f : Fin NR → ℝ) (m : ℝ) (hm : m = (∑ r, f r) * (1 / 131072)) :
    (∑ r, f r * f r) * (1 / 131072) - m * m = (∑ r, (f r - m) * (f r - m)) * (1 / 131072) := by
  have hS : (∑ r, f r) = 131072 * m := by rw [hm]; ring
  have hsum : (∑ r, (f r - m) * (f r - m)) = (∑ r, f r * f r) - 2 * m * (∑ r, f r) + 131072 * (m * m) := by
    simp only [show ∀ r, (f r - m) * (f r - m) = f r * f r - 2 * m * f r + m * m from fun r => by ring]
    rw [Finset.sum_add_distrib, Finset.sum_sub_distrib, ← Finset.mul_sum, Finset.sum_const, Finset.card_univ,
      Fintype.card_fin, nsmul_eq_mul]
    norm_num
  rw [hsum, hS]; ring

theorem real_var_nonneg (f : Fin NR → ℝ) (m : ℝ) : 0 ≤ (∑ r, (f r - m) * (f r - m)) * (1 / 131072) :=
  mul_nonneg (Finset.sum_nonneg fun r _ => mul_self_nonneg _) (by norm_num)

theorem mean_coe (y : Fin NR → Fin 32 → ℝ) (j : Fin 32) :
    mean (fun r j => (y r j : EReal)) j = (((∑ r, y r j) * (1 / 131072) : ℝ) : EReal) := by
  unfold mean
  rw [cnt_eq, Ideal.div_coe (by norm_num), ← coe_sum, ← EReal.coe_mul]

theorem varR_coe (y : Fin NR → Fin 32 → ℝ) (j : Fin 32) :
    varR (fun r j => (y r j : EReal)) j
      = (((∑ r, (y r j - (∑ r, y r j) * (1 / 131072)) * (y r j - (∑ r, y r j) * (1 / 131072))) * (1 / 131072) : ℝ) : EReal) := by
  unfold varR
  rw [mean_coe, cnt_eq, Ideal.div_coe (by norm_num)]
  simp only [← EReal.coe_sub, ← EReal.coe_mul, ← coe_sum]

-- The first form is the second before its clamp, and the second is not negative, so the clamp is the identity.
theorem varK_coe (y : Fin NR → Fin 32 → ℝ) (j : Fin 32) :
    varK (fun r j => (y r j : EReal)) j = varR (fun r j => (y r j : EReal)) j := by
  rw [varR_coe]
  unfold varK
  rw [mean_coe, cnt_eq, Ideal.div_coe (by norm_num)]
  simp only [← EReal.coe_sub, ← EReal.coe_mul, ← coe_sum]
  rw [real_var (fun r => y r j) _ rfl]
  exact max_eq_left (EReal.coe_nonneg.2 (real_var_nonneg _ _))

theorem exists_real {K : ℕ} (Y : Fin NR → Fin K → EReal) (hY : ∀ r j, Fin' (Y r j)) :
    ∃ y : Fin NR → Fin K → ℝ, Y = fun r j => (y r j : EReal) := by
  choose y hy using fun r j => (⟨(Y r j).toReal, (EReal.coe_toReal (hY r j).1 (hY r j).2).symm⟩ : ∃ a : ℝ, Y r j = a)
  exact ⟨y, funext fun r => funext fun j => hy r j⟩

theorem varK_eq_varR (Y : Fin NR → Fin 32 → EReal) (hY : ∀ r j, Fin' (Y r j)) : varK Y = varR Y := by
  obtain ⟨y, rfl⟩ := exists_real Y hY
  exact funext (varK_coe y)

theorem varR_nonneg_real (Y : Fin NR → Fin 32 → EReal) (hY : ∀ r j, Fin' (Y r j)) (j : Fin 32) :
    ∃ v : ℝ, 0 ≤ v ∧ varR Y j = (v : EReal) := by
  obtain ⟨y, rfl⟩ := exists_real Y hY
  exact ⟨_, real_var_nonneg _ _, varR_coe y j⟩

theorem finite_mean (Y : Fin NR → Fin 32 → EReal) (hY : ∀ r j, Fin' (Y r j)) (j : Fin 32) : Fin' (mean Y j) := by
  obtain ⟨y, rfl⟩ := exists_real Y hY
  rw [mean_coe]; exact fin'_coe _

-- A real that is not negative plus the positive regularizer has a real reciprocal root.
theorem finite_rsqrt {x : EReal} (hx : ∃ v : ℝ, 0 ≤ v ∧ x = (v : EReal)) : Fin' (Ideal.rsqrt (x + eps)) := by
  obtain ⟨v, hv, rfl⟩ := hx
  obtain ⟨e, he, hE⟩ := eps_pos
  have hpos : 0 < v + e := by linarith
  rw [hE, ← EReal.coe_add, Ideal.rsqrt_coe, if_neg (not_lt.2 hpos.le), if_neg hpos.ne']
  exact fin'_coe _

theorem finite_norm (Y : Fin NR → Fin 32 → EReal) (v g be : Fin 32 → EReal) (hY : ∀ r j, Fin' (Y r j))
    (hv : ∀ j, ∃ w : ℝ, 0 ≤ w ∧ v j = (w : EReal)) (hg : ∀ j, Fin' (g j)) (hbe : ∀ j, Fin' (be j)) :
    ∀ r j, Fin' (norm Y v g be r j) := fun r j =>
  fin'_max (fin'_add (fin'_mul (fin'_mul (hg j) (fin'_sub (hY r j) (finite_mean Y hY j))) (finite_rsqrt (hv j))) (hbe j))
    (fin'_coe 0)

section
variable {K : ℕ} (L : Fin NR → Fin K → EReal) (W : Fin K → Fin 32 → EReal) (b g be : Fin 32 → EReal)
  (hL : ∀ r k, Fin' (L r k)) (hW : ∀ k j, Fin' (W k j)) (hb : ∀ j, Fin' (b j))
include hL hW hb

theorem finite_affine : ∀ r j, Fin' (affine L W b r j) := fun r j =>
  fin'_add (fin'_sum _ _ fun k => fin'_mul (hL r k) (hW k j)) (hb j)

theorem finite_layerR (hg : ∀ j, Fin' (g j)) (hbe : ∀ j, Fin' (be j)) : ∀ r j, Fin' (layerR L W b g be r j) :=
  finite_norm _ _ g be (finite_affine L W b hL hW hb) (varR_nonneg_real _ (finite_affine L W b hL hW hb)) hg hbe

theorem layerK_eq_layerR : layerK L W b g be = layerR L W b g be := by
  unfold layerK layerR
  rw [varK_eq_varR _ (finite_affine L W b hL hW hb)]

end

end Cert.Spec
-- ==== Proof.ModelLaw.lean ====
import proofs.«120946_j80985903333894_1_alg».proof.Proof.Model
import proofs.«120946_j80985903333894_1_alg».proof.Proof.SpecLaw

namespace Cert.Model

open Idealize.ShloMosaic Idealize.ShloMosaic.ValueIdx Cert.KernelIdeal Cert.Spec

private theorem fin'_zero32 : Fin' (Ideal.ofBits .f32 0x00000000#32) := by
  rw [Ideal.ofBits_zero_f32]; exact fin'_coe 0

-- Each entry of an accumulating scatter of products is the operand's entry plus a finite sum of products.
private theorem fin'_spmm {s si u : Shape} {w : ℕ} (d : ScatterDims s si u) (z : FVec Ideal s .f32) (idx : IVec si w)
    (a b : FVec Ideal u .f32) (hz : ∀ i, Fin' (z i)) (ha : ∀ j, Fin' (a j)) (hb : ∀ j, Fin' (b j)) (i : s.Idx) :
    Fin' (Host.scatterAdd d z idx (mulf a b) i) :=
  fin'_add (hz i) (fin'_sum _ _ fun j => fin'_mul (ha j) (hb j))

-- The sparse products re-index their operands and scatter products of finite entries, so both layers' rows stay finite.
theorem modelK_eq_modelR
    (X : (⟨S16x8192x64, .f32⟩ : BufTy).Contents (Elt Ideal)) (EX : (⟨S16x32, .f32⟩ : BufTy).Contents (Elt Ideal))
    (er ec : (⟨S131072, .i32⟩ : BufTy).Contents (Elt Ideal)) (ev : (⟨S131072, .f32⟩ : BufTy).Contents (Elt Ideal))
    (W1 : (⟨S64x32, .f32⟩ : BufTy).Contents (Elt Ideal)) (b1 g1 be1 : (⟨S32, .f32⟩ : BufTy).Contents (Elt Ideal))
    (W2 : (⟨S32x32, .f32⟩ : BufTy).Contents (Elt Ideal)) (b2 g2 be2 : (⟨S32, .f32⟩ : BufTy).Contents (Elt Ideal))
    (FW : (⟨S262176x512, .f32⟩ : BufTy).Contents (Elt Ideal)) (fb : (⟨S512, .f32⟩ : BufTy).Contents (Elt Ideal))
    (F2 : (⟨S512x2, .f32⟩ : BufTy).Contents (Elt Ideal)) (f2b : (⟨S2, .f32⟩ : BufTy).Contents (Elt Ideal))
    (hX : ∀ i, Spec.Fin' (X i)) (hev : ∀ i, Spec.Fin' (ev i)) (hW1 : ∀ i, Spec.Fin' (W1 i)) (hb1 : ∀ i, Spec.Fin' (b1 i))
    (hg1 : ∀ i, Spec.Fin' (g1 i)) (hbe1 : ∀ i, Spec.Fin' (be1 i)) (hW2 : ∀ i, Spec.Fin' (W2 i)) (hb2 : ∀ i, Spec.Fin' (b2 i)) :
    modelK X EX er ec ev W1 b1 g1 be1 W2 b2 g2 be2 FW fb F2 f2b = modelR X EX er ec ev W1 b1 g1 be1 W2 b2 g2 be2 FW fb F2 f2b := by
  have h1 : ∀ r k, Fin' (rows1 X er ec ev r k) := fun r k =>
    fin'_spmm _ _ _ _ _ (fun _ => fin'_zero32) (fun _ => hev _) (fun _ => hX _) _
  have h2 : ∀ O : Fin NR → Fin 32 → EReal, (∀ r j, Fin' (O r j)) → ∀ r j, Fin' (rows2 er ec ev O r j) := fun O hO r j =>
    fin'_spmm _ _ _ _ _ (fun _ => fin'_zero32) (fun _ => hev _) (fun _ => hO _ _) _
  unfold modelK modelR outK outR
  rw [layerK_eq_layerR _ _ _ _ _ h1 (fun _ _ => hW1 _) fun _ => hb1 _,
    layerK_eq_layerR _ _ _ _ _ (h2 _ (finite_layerR _ _ _ _ _ h1 (fun _ _ => hW1 _) (fun _ => hb1 _) (fun _ => hg1 _) fun _ => hbe1 _))
      (fun _ _ => hW2 _) fun _ => hb2 _]

end Cert.Model
-- ==== Proof.PreFinite.lean ====
import proofs.«120946_j80985903333894_1_alg».proof.Defs
import proofs.«120946_j80985903333894_1_alg».proof.Proof.Gen.Pre_finite_inputs
import proofs.«120946_j80985903333894_1_alg».proof.Proof.Gen.KernelIdeal
import proofs.«120946_j80985903333894_1_alg».proof.Proof.Spec
import Idealize.ShloMosaic.Lib.ReduceAll

namespace Cert.PreFinite

open Idealize.ShloMosaic Idealize.ShloMosaic.ValueIdx Cert.Pre_finite_inputs

instance : Subsingleton (⟨0, ![]⟩ : Shape).Idx := ⟨fun a b => funext fun d => d.elim0⟩

-- If |x| = max x (-x) lies below +∞ then x is neither infinity: either would make the maximum +∞.
private theorem fin_of_cmp (x : EReal)
    (h : FloatOps.cmpf (F := Ideal) (φ := .f32) .olt (FloatOps.hostAbsf (F := Ideal) (φ := .f32) x)
      (FloatOps.ofBits (F := Ideal) .f32 0x7F800000#32) = 1#1) : Spec.Fin' x := by
  change BitVec.ofBool (decide (max x (-x) < Ideal.ofBits .f32 0x7F800000#32)) = 1#1 at h
  rw [show Ideal.ofBits .f32 0x7F800000#32 = ⊤ by simp [Ideal.ofBits, Ideal.ieee]] at h
  have h' : max x (-x) < ⊤ := by
    by_contra hc
    rw [decide_eq_false hc] at h
    exact absurd h (by decide)
  constructor <;> rintro rfl <;> simp at h'

-- A fold by `and` from 1 that ends at 1 met only 1s, so every entry's comparison holds.
private theorem fin_of_all {s : Shape} {axes : List (Fin s.rank)}
    (hb : (⟨0, ![]⟩ : Shape).BroadcastsInDim s (![] : Fin 0 → Fin s.rank)) (hr : s.ReducesTo axes ⟨0, ![]⟩)
    (h0 : 0 < (⟨0, ![]⟩ : Shape).numel) (x : FVec Ideal s .f32) (j : (⟨0, ![]⟩ : Shape).Idx)
    (e : Host.reduce IntOp.andi
      (cmpf .olt (Host.absf x) (broadcastInDim s ![] hb (constant (F := Ideal) ⟨0, ![]⟩ .f32 0x7F800000#32)))
      (constantI ⟨0, ![]⟩ 1 1#1) hr h0 j = 1#1) (i : s.Idx) : Spec.Fin' (x i) :=
  fin_of_cmp (x i) (Host.reduce_andi_all _ _ hr h0 j e i)

-- The precondition is a left-nested conjunction of such folds, one for each float argument.
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Spec.Fin' ((m ((c.tc : Thread Cert.KernelIdeal.nD Cert.KernelIdeal.τ).loc Cert.KernelIdeal.main_arg0)) i))
      ∧ (∀ i, Spec.Fin' ((m ((c.tc : Thread Cert.KernelIdeal.nD Cert.KernelIdeal.τ).loc Cert.KernelIdeal.main_arg4)) i))
      ∧ (∀ i, Spec.Fin' ((m ((c.tc : Thread Cert.KernelIdeal.nD Cert.KernelIdeal.τ).loc Cert.KernelIdeal.main_arg5)) i))
      ∧ (∀ i, Spec.Fin' ((m ((c.tc : Thread Cert.KernelIdeal.nD Cert.KernelIdeal.τ).loc Cert.KernelIdeal.main_arg6)) i))
      ∧ (∀ i, Spec.Fin' ((m ((c.tc : Thread Cert.KernelIdeal.nD Cert.KernelIdeal.τ).loc Cert.KernelIdeal.main_arg7)) i))
      ∧ (∀ i, Spec.Fin' ((m ((c.tc : Thread Cert.KernelIdeal.nD Cert.KernelIdeal.τ).loc Cert.KernelIdeal.main_arg8)) i))
      ∧ (∀ i, Spec.Fin' ((m ((c.tc : Thread Cert.KernelIdeal.nD Cert.KernelIdeal.τ).loc Cert.KernelIdeal.main_arg9)) i))
      ∧ (∀ i, Spec.Fin' ((m ((c.tc : Thread Cert.KernelIdeal.nD Cert.KernelIdeal.τ).loc Cert.KernelIdeal.main_arg10)) i)) := by
  have e := congrFun (h c) ix0
  dsimp only [fn, fn_part1, fn_part2, fn_part3, fn_part4, andi] at e
  simp only [IntOp.andi_eq_one] at e
  obtain ⟨⟨⟨⟨⟨⟨⟨⟨⟨⟨⟨⟨⟨⟨e0, -⟩, e4⟩, e5⟩, e6⟩, e7⟩, e8⟩, e9⟩, e10⟩, -⟩, -⟩, -⟩, -⟩, -⟩, -⟩ := e
  exact ⟨fin_of_all _ _ _ _ _ e0, fin_of_all _ _ _ _ _ e4, fin_of_all _ _ _ _ _ e5, fin_of_all _ _ _ _ _ e6,
    fin_of_all _ _ _ _ _ e7, fin_of_all _ _ _ _ _ e8, fin_of_all _ _ _ _ _ e9, fin_of_all _ _ _ _ _ e10⟩

end Cert.PreFinite
-- ==== Proof.Algebraic.lean ====
import proofs.«120946_j80985903333894_1_alg».proof.Proof.Gen.Kernel
import proofs.«120946_j80985903333894_1_alg».proof.Proof.KI.Run
import proofs.«120946_j80985903333894_1_alg».proof.Proof.KI.KernelValue
import proofs.«120946_j80985903333894_1_alg».proof.Proof.Ref.RefValue
import proofs.«120946_j80985903333894_1_alg».proof.Proof.ModelLaw
import proofs.«120946_j80985903333894_1_alg».proof.Proof.PreFinite

namespace Cert.Algebraic

open Idealize.ShloMosaic Idealize.SL.Sem Idealize.ShloMosaic.ValueIdx

theorem algebraic : Cert.algebraic_KernelIdeal_ReferenceIdeal := by
  intro m ρ m' ρ' hpre hagree
  refine ⟨fun c => Cert.KernelIdeal.Fr.W14 m c (Proc.devRef .tc Cert.KernelIdeal.main_v70), ?_, ?_⟩
  · refine (θ_run Cert.KernelIdeal.defs _ _).mono (fun r h c => ⟨?_, Cert.KernelIdeal.Fr.frame_post m c r.2 (h c)⟩)
      (Cert.KernelIdeal.Fr.run_main (F := Ideal) m ρ)
    exact h c _ (Cert.KernelIdeal.Fr.mem_uc Cert.KernelIdeal.main_v70 (by decide))
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    obtain ⟨f0, f4, f5, f6, f7, f8, f9, f10⟩ := Cert.PreFinite.finite_of_pre m hpre c
    funext i
    obtain ⟨g, o, rfl⟩ : ∃ (g : Fin 16) (o : Fin 2), i = ix2 g o := ⟨i 0, i 1, eq_ix2 i⟩
    refine (Cert.RefValue.ref_value m' c g o).trans ?_
    rw [h0, h1, h2, h3, h4, h5, h6, h7, h8, h9, h10, h11, h12, h13, h14, h15, h16]
    rw [← Cert.Model.modelK_eq_modelR _ _ _ _ _ _ _ _ _ _ _ _ _ _ _ _ _ f0 f4 f5 f6 f7 f8 f9 f10]
    exact (Cert.KernelIdeal.Fr.kernel_value m c g o).symm

end Cert.Algebraic
-- ==== Proof.lean ====
/-
  A two-layer graph network with a two-layer head against its plain reference. Each layer is an affine map followed by a
  normalization by the columns' mean and variance and a clamp at zero; the kernel takes the variance as the mean of squares
  less the squared mean, the reference as the mean of squared deviations, and the two agree on finite entries.
-/
import proofs.«120946_j80985903333894_1_alg».proof.Proof.K.Keep
import proofs.«120946_j80985903333894_1_alg».proof.Proof.K.Run
import proofs.«120946_j80985903333894_1_alg».proof.Proof.Algebraic

noncomputable section

namespace Cert.Proof

open Idealize.ShloMosaic Idealize.SL.Sem

theorem frame_k : Cert.frame_Kernel := fun m ρ _ =>
  (θ_run Cert.Kernel.defs _ _).mono (fun r h c => Cert.Kernel.Fr.frame_post m c r.2 (h c)) (Cert.Kernel.Fr.run_main (F := Bits) m ρ)

theorem frame_ki : Cert.frame_KernelIdeal := fun m ρ _ =>
  (θ_run Cert.KernelIdeal.defs _ _).mono (fun r h c => Cert.KernelIdeal.Fr.frame_post m c r.2 (h c)) (Cert.KernelIdeal.Fr.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Algebraic.algebraic⟩

end Cert.Proof

end
